-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S131072 : Shape := ⟨1, ![131072]⟩
abbrev S8192 : Shape := ⟨1, ![8192]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S131072 : S_.BroadcastsInDim S131072 (![] : Fin 0 → Fin S131072.rank)
  reducesTo_S131072_S_d0 : S131072.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S131072 32) (main_arg4 : IVec S131072 32) (main_v13 : IVec S_ 1) (main_v15 : IVec S131072 1) (main_c_5 : IVec S_ 1) : IVec S_ 1 :=
  let main_v16 : IVec S_ 1 := (fun x v => Host.reduce IntOp.andi x v reducesTo_S131072_S_d0 h_S_) main_v15 main_c_5
  let main_v17 : IVec S_ 1 := andi main_v13 main_v16
  let main_c_6 : IVec S_ 32 := constantI S_ 32 8192#32
  let main_v18 : IVec S131072 32 := broadcastInDim S131072 ![] bcast_S_S131072 main_c_6
  let main_v19 : IVec S131072 1 := cmpi .slt main_arg3 main_v18
  let main_c_7 : IVec S_ 1 := constantI S_ 1 1#1
  let main_v20 : IVec S_ 1 := (fun x v => Host.reduce IntOp.andi x v reducesTo_S131072_S_d0 h_S_) main_v19 main_c_7
  let main_v21 : IVec S_ 1 := andi main_v17 main_v20
  let main_c_8 : IVec S_ 32 := constantI S_ 32 0#32
  let main_v22 : IVec S131072 32 := broadcastInDim S131072 ![] bcast_S_S131072 main_c_8
  let main_v23 : IVec S131072 1 := cmpi .sge main_arg4 main_v22
  let main_c_9 : IVec S_ 1 := constantI S_ 1 1#1
  let main_v24 : IVec S_ 1 := (fun x v => Host.reduce IntOp.andi x v reducesTo_S131072_S_d0 h_S_) main_v23 main_c_9
  let main_v25 : IVec S_ 1 := andi main_v21 main_v24
  let main_c_10 : IVec S_ 32 := constantI S_ 32 8192#32
  let main_v26 : IVec S131072 32 := broadcastInDim S131072 ![] bcast_S_S131072 main_c_10
  let main_v27 : IVec S131072 1 := cmpi .slt main_arg4 main_v26
  let main_c_11 : IVec S_ 1 := constantI S_ 1 1#1
  let main_v28 : IVec S_ 1 := (fun x v => Host.reduce IntOp.andi x v reducesTo_S131072_S_d0 h_S_) main_v27 main_c_11
  let main_v29 : IVec S_ 1 := andi main_v25 main_v28
  main_v29

def fn {F : FTy → Type} [FloatOps F] (main_arg0 : FVec F S1024x8192 .f32) (main_arg1 : FVec F S131072 .f32) (main_arg2 : FVec F S8192 .f32) (main_arg3 : IVec S131072 32) (main_arg4 : IVec S131072 32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S131072 .f32 := Host.absf main_arg1
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg3 main_v14
  let main_c_5 : IVec S_ 1 := constantI S_ 1 1#1
  fn_part1 (F := F) main_arg3 main_arg4 main_v13 main_v15 main_c_5
-- ==== Kernel.lean ====
abbrev S1024x8192 : Shape := ⟨2, ![1024, 8192]⟩
abbrev S131072 : Shape := ⟨1, ![131072]⟩
abbrev S8192 : Shape := ⟨1, ![8192]⟩
abbrev S_ : Shape := ⟨0, ![]⟩
abbrev S67108864 : Shape := ⟨1, ![67108864]⟩
abbrev S131072x1 : Shape := ⟨2, ![131072, 1]⟩
abbrev S8192x8192 : Shape := ⟨2, ![8192, 8192]⟩
abbrev S1x8192 : Shape := ⟨2, ![1, 8192]⟩
abbrev S1024x1024 : Shape := ⟨2, ![1024, 1024]⟩
abbrev S1x1024 : Shape := ⟨2, ![1, 1024]⟩

abbrev nBuf : Space → Nat
  | .hbm => 27
  | .vmem => 24
  | .smem => 0
  | _ => 0

abbrev bufTy : (tb : Table) → Fin (tcTables nBuf tb) → BufTy
  | .hbm, ⟨0, _⟩ => ⟨S1024x8192, .f32⟩
  | .hbm, ⟨1, _⟩ => ⟨S131072, .f32⟩
  | .hbm, ⟨2, _⟩ => ⟨S8192, .f32⟩
  | .hbm, ⟨3, _⟩ => ⟨S131072, .i32⟩
  | .hbm, ⟨4, _⟩ => ⟨S131072, .i32⟩
  | .hbm, ⟨5, _⟩ => ⟨S_, .i32⟩
  | .hbm, ⟨6, _⟩ => ⟨S131072, .i32⟩
  | .hbm, ⟨7, _⟩ => ⟨S131072, .i32⟩
  | .hbm, ⟨8, _⟩ => ⟨S131072, .i32⟩
  | .hbm, ⟨9, _⟩ => ⟨S_, .f32⟩
  | .hbm, ⟨10, _⟩ => ⟨S67108864, .f32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S131072x1, .i32⟩
  | .hbm, ⟨19, _⟩ => ⟨S67108864, .f32⟩
  | .hbm, ⟨20, _⟩ => ⟨S8192x8192, .f32⟩
  | .hbm, ⟨21, _⟩ => ⟨S8192x8192, .bf16⟩
  | .hbm, ⟨22, _⟩ => ⟨S1x8192, .f32⟩
  | .hbm, ⟨23, _⟩ => ⟨S1024x8192, .bf16⟩
  | .hbm, ⟨24, _⟩ => ⟨S1024x8192, .bf16⟩
  | .hbm, ⟨25, _⟩ => ⟨S1024x8192, .bf16⟩
  | .hbm, ⟨26, _⟩ => ⟨S1024x8192, .f32⟩
  | .local _ .vmem, ⟨0, _⟩ => ⟨S1024x8192, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x8192, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x8192, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S1024x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k2_cond2 (i : grid2.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S1024x8192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bcast_S_S131072 : S_.BroadcastsInDim S131072 (![] : Fin 0 → Fin S131072.rank)
  bcast_S_S67108864 : S_.BroadcastsInDim S67108864 (![] : Fin 0 → Fin S67108864.rank)
  bcast_S131072_S131072x1_0 : S131072.BroadcastsInDim S131072x1 (![0] : Fin 1 → Fin S131072x1.rank)
  shapeCasts_S67108864_S8192x8192 : S67108864.ShapeCasts S8192x8192
  bitsLt_bf16_f32 : FTy.bits .bf16 < FTy.bits .f32
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  scatter_S67108864_S131072x1_S131072_n_0_0_1_wf : ScatterDims.WF S67108864 S131072x1 S131072 [] [0] [0] 1
  dot_S1024x1024_S1024x1024_S1024x1024_1_0_0_1_n_n_wf : DotDims.WF S1024x1024 S1024x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S1024x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x8192.size a ≤ S1024x8192.size a
  hwx0_0 : ∀ i : grid0.Coords, EltTy.bits .bf16 = 32 ∨ (Rect.block (s := S1024x8192) S1024x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .bf16 = 32 ∨ (Rect.block (s := S8192x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x8192.size a
  hwx0_3 : ∀ i : grid0.Coords, EltTy.bits .bf16 = 32 ∨ (Rect.block (s := S1024x8192) S1024x1024.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x1024.size a ≤ S1024x8192.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x8192.size a ≤ S1024x8192.size a
  hwx1_0 : ∀ i : grid1.Coords, EltTy.bits .bf16 = 32 ∨ (Rect.block (s := S1024x8192) S1024x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .bf16 = 32 ∨ (Rect.block (s := S8192x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x8192.size a
  hwx1_3 : ∀ i : grid1.Coords, EltTy.bits .bf16 = 32 ∨ (Rect.block (s := S1024x8192) S1024x1024.size (cc1_transform_3 i) (hinb1_3 i)).WholeWords (EltTy.packing .bf16)
  hrank2 : 0 < grid2.rank
  k2_mult1_dvd : ∀ i : grid2.Coords, 1024 ∣ (k2_mult1 i).toNat
  k2_off1_inb : ∀ i : grid2.Coords, ∀ a, (k2_off1 i) a + S1024x1024.size a ≤ S1024x8192.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x8192.size a ≤ S1024x8192.size a
  hwx2_0 : ∀ i : grid2.Coords, EltTy.bits .bf16 = 32 ∨ (Rect.block (s := S1024x8192) S1024x8192.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x8192.size a
  hwx2_1 : ∀ i : grid2.Coords, EltTy.bits .bf16 = 32 ∨ (Rect.block (s := S8192x8192) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x8192.size a
  hwx2_3 : ∀ i : grid2.Coords, EltTy.bits .f32 = 32 ∨ (Rect.block (s := S1024x8192) S1024x1024.size (cc2_transform_3 i) (hinb2_3 i)).WholeWords (EltTy.packing .f32)

variable [Facts₀]

def scatter_S67108864_S131072x1_S131072_n_0_0_1 : ScatterDims S67108864 S131072x1 S131072 where
  updateWindowDims := []
  insertedWindowDims := [0]
  scatterDimsToOperandDims := [0]
  indexVectorDim := 1
  wf := scatter_S67108864_S131072x1_S131072_n_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v14) S1024x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v15) S1024x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v16) S1024x8192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S1024x8192 : Shape := ⟨2, ![1024, 8192]⟩
abbrev S131072 : Shape := ⟨1, ![131072]⟩
abbrev S8192 : Shape := ⟨1, ![8192]⟩
abbrev S8192x1024 : Shape := ⟨2, ![8192, 1024]⟩
abbrev S_ : Shape := ⟨0, ![]⟩
abbrev S131072x1 : Shape := ⟨2, ![131072, 1]⟩
abbrev S131072x1024 : Shape := ⟨2, ![131072, 1024]⟩
abbrev S1x8192 : Shape := ⟨2, ![1, 8192]⟩

abbrev nBuf : Space → Nat
  | .hbm => 77
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S131072, .f32⟩
  | .hbm, ⟨2, _⟩ => ⟨S8192, .f32⟩
  | .hbm, ⟨3, _⟩ => ⟨S131072, .i32⟩
  | .hbm, ⟨4, _⟩ => ⟨S131072, .i32⟩
  | .hbm, ⟨5, _⟩ => ⟨S8192x1024, .f32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S131072x1024, .f32⟩
  | .hbm, ⟨15, _⟩ => ⟨S131072x1, .f32⟩
  | .hbm, ⟨16, _⟩ => ⟨S131072x1024, .f32⟩
  | .hbm, ⟨17, _⟩ => ⟨S131072x1024, .f32⟩
  | .hbm, ⟨18, _⟩ => ⟨S_, .f32⟩
  | .hbm, ⟨19, _⟩ => ⟨S8192x1024, .f32⟩
  | .hbm, ⟨20, _⟩ => ⟨S131072x1, .i32⟩
  | .hbm, ⟨21, _⟩ => ⟨S8192x1024, .f32⟩
  | .hbm, ⟨22, _⟩ => ⟨S1024x8192, .f32⟩
  | .hbm, ⟨23, _⟩ => ⟨S1x8192, .f32⟩
  | .hbm, ⟨24, _⟩ => ⟨S1024x8192, .f32⟩
  | .hbm, ⟨25, _⟩ => ⟨S1024x8192, .f32⟩
  | .hbm, ⟨26, _⟩ => ⟨S_, .f32⟩
  | .hbm, ⟨27, _⟩ => ⟨S1024x8192, .f32⟩
  | .hbm, ⟨28, _⟩ => ⟨S1024x8192, .f32⟩
  | .hbm, ⟨29, _⟩ => ⟨S8192x1024, .f32⟩
  | .hbm, ⟨30, _⟩ => ⟨S_, .i32⟩
  | .hbm, ⟨31, _⟩ => ⟨S131072, .i32⟩
  | .hbm, ⟨32, _⟩ => ⟨S131072, .i1⟩
  | .hbm, ⟨33, _⟩ => ⟨S_, .i32⟩
  | .hbm, ⟨34, _⟩ => ⟨S131072, .i32⟩
  | .hbm, ⟨35, _⟩ => ⟨S131072, .i32⟩
  | .hbm, ⟨36, _⟩ => ⟨S131072, .i32⟩
  | .hbm, ⟨37, _⟩ => ⟨S131072x1, .i32⟩
  | .hbm, ⟨38, _⟩ => ⟨S131072x1024, .f32⟩
  | .hbm, ⟨39, _⟩ => ⟨S131072x1, .f32⟩
  | .hbm, ⟨40, _⟩ => ⟨S131072x1024, .f32⟩
  | .hbm, ⟨41, _⟩ => ⟨S131072x1024, .f32⟩
  | .hbm, ⟨42, _⟩ => ⟨S_, .f32⟩
  | .hbm, ⟨43, _⟩ => ⟨S8192x1024, .f32⟩
  | .hbm, ⟨44, _⟩ => ⟨S131072x1, .i32⟩
  | .hbm, ⟨45, _⟩ => ⟨S8192x1024, .f32⟩
  | .hbm, ⟨46, _⟩ => ⟨S1024x8192, .f32⟩
  | .hbm, ⟨47, _⟩ => ⟨S1x8192, .f32⟩
  | .hbm, ⟨48, _⟩ => ⟨S1024x8192, .f32⟩
  | .hbm, ⟨49, _⟩ => ⟨S1024x8192, .f32⟩
  | .hbm, ⟨50, _⟩ => ⟨S_, .f32⟩
  | .hbm, ⟨51, _⟩ => ⟨S1024x8192, .f32⟩
  | .hbm, ⟨52, _⟩ => ⟨S1024x8192, .f32⟩
  | .hbm, ⟨53, _⟩ => ⟨S8192x1024, .f32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131072x1024, .f32⟩
  | .hbm, ⟨63, _⟩ => ⟨S131072x1, .f32⟩
  | .hbm, ⟨64, _⟩ => ⟨S131072x1024, .f32⟩
  | .hbm, ⟨65, _⟩ => ⟨S131072x1024, .f32⟩
  | .hbm, ⟨66, _⟩ => ⟨S_, .f32⟩
  | .hbm, ⟨67, _⟩ => ⟨S8192x1024, .f32⟩
  | .hbm, ⟨68, _⟩ => ⟨S131072x1, .i32⟩
  | .hbm, ⟨69, _⟩ => ⟨S8192x1024, .f32⟩
  | .hbm, ⟨70, _⟩ => ⟨S1024x8192, .f32⟩
  | .hbm, ⟨71, _⟩ => ⟨S1x8192, .f32⟩
  | .hbm, ⟨72, _⟩ => ⟨S1024x8192, .f32⟩
  | .hbm, ⟨73, _⟩ => ⟨S1024x8192, .f32⟩
  | .hbm, ⟨74, _⟩ => ⟨S_, .f32⟩
  | .hbm, ⟨75, _⟩ => ⟨S1024x8192, .f32⟩
  | .hbm, ⟨76, _⟩ => ⟨S1024x8192, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call1_cst : Ref sig .tc := ⟨.hbm, 50, rfl⟩
abbrev main_call1_v0 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call2_cst : Ref sig .tc := ⟨.hbm, 74, rfl⟩
abbrev main_call2_v0 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  transposes_S1024x8192_S8192x1024_1_0 : S1024x8192.Transposes [1, 0] S8192x1024
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x1024_0_1 : S131072x1.BroadcastsInDim S131072x1024 (![0, 1] : Fin 2 → Fin S131072x1024.rank)
  bcast_S_S8192x1024 : S_.BroadcastsInDim S8192x1024 (![] : Fin 0 → Fin S8192x1024.rank)
  transposes_S8192x1024_S1024x8192_1_0 : S8192x1024.Transposes [1, 0] S1024x8192
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  bcast_S_S1024x8192 : S_.BroadcastsInDim S1024x8192 (![] : Fin 0 → Fin S1024x8192.rank)
  gather_S8192x1024_S131072x1_S131072x1024_1_0_n_n_0_1_11024_wf : GatherDims.WF S8192x1024 S131072x1 S131072x1024 [1] [0] [] [0] [] 1 ![1, 1024]
  scatter_S8192x1024_S131072x1_S131072x1024_1_0_0_1_wf : ScatterDims.WF S8192x1024 S131072x1 S131072x1024 [1] [0] [0] 1

variable [Facts₀]

def gather_S8192x1024_S131072x1_S131072x1024_1_0_n_n_0_1_11024 : GatherDims S8192x1024 S131072x1 S131072x1024 where
  offsetDims := [1]
  collapsedSliceDims := [0]
  operandBatchingDims := []
  startIndicesBatchingDims := []
  startIndexMap := [0]
  indexVectorDim := 1
  sliceSizes := ![1, 1024]
  wf := gather_S8192x1024_S131072x1_S131072x1024_1_0_n_n_0_1_11024_wf
def scatter_S8192x1024_S131072x1_S131072x1024_1_0_0_1 : ScatterDims S8192x1024 S131072x1 S131072x1024 where
  updateWindowDims := [1]
  insertedWindowDims := [0]
  scatterDimsToOperandDims := [0]
  indexVectorDim := 1
  wf := scatter_S8192x1024_S131072x1_S131072x1024_1_0_0_1_wf

class Facts : Prop extends Facts₀ where

variable [Facts]
-- ==== Proof.KI.R0Runs.lean ====
import proofs.«427775_j1245540516174_2_alg».proof.Proof.Gen.KernelIdeal.Launch
import proofs.«427775_j1245540516174_2_alg».proof.Proof.Gen.KernelIdeal.Skeleton
import proofs.«427775_j1245540516174_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's two conditions at point t = 8 · n + k: this one is k = 0 (the accumulator is cleared), -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- and this one is k = 7 (the output tile is stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel

theorem liveAt0_3 : ∀ t : Fin cfg0.N, cond0_1 (grid0.coords t) → cfg0.idle 3 (grid0.coords t) = false := by decide +kernel

abbrev VO0_3 : View sig .tc .vmem S1024x1024 EltTy.bf16 := (Memref.whole cc0_stg3_0 : Memref sig .tc .vmem S1024x1024 EltTy.bf16).view
abbrev ms0_0 (t : Fin cfg0.N) : Memref sig .tc .vmem S1024x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 EltTy.bf16 := win0_3.stage (cfg0.slots t 3)
abbrev hs0_3 (t : Fin cfg0.N) : (ms0_3 t).IsWhole := hstage0_3 ((cfg0.slots t 3).cast nbuf0_3)

abbrev scM0_0 : Memref sig .tc .vmem S1024x1024 .f32 := Memref.whole cc0_scratch0
abbrev VS0_0 : View sig .tc .vmem S1024x1024 .f32 := scM0_0.view

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA
  rw [Pipeline.scopedRest_split_of_list spec0 c [cc0_scratch0] (by decide) (by decide)]
  simp only [scM0_0, owns_whole, bigSepL_singleton]
  try rfl

end Cert.KernelIdeal.Fr

end
-- ==== Proof.KI.R0RunA.lean ====
import proofs.«427775_j1245540516174_2_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- k = 0: the accumulator is cleared, then one product is accumulated; nothing is stored out. The lists of stores are found by running the body. -/
noncomputable def kernelRun0_A (c : Dev nD) (i : grid0.Coords) (arg2 : Memref sig .tc .vmem S1024x8192 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 EltTy.bf16) (harg5 : arg5.IsWhole) (arg6 : Memref sig .tc .vmem S1024x1024 .f32) (harg6 : arg6.IsWhole) (hc0 : cond0_0 i) (hc1 : ¬cond0_1 i)
    (x0 : Vec F S1024x8192 .bf16) (x1 : Vec F S1024x1024 .bf16) (x2 : Vec F S1x1024 .f32) :
    Σ' (L3 : List (View.Piece (Elt F) S1024x1024 EltTy.bf16)), { LS0 : List (View.Piece (Elt F) S1024x1024 .f32) //
      ∀ (xi3 : Vec F S1024x1024 EltTy.bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_relu_kernel i arg2 harg2 arg3 harg3 arg4 harg4 arg5 harg5 arg6 harg6) K } := by
  refine ⟨[], ?_, fun xi3 E K => ?run⟩
  case run =>
    simp only [cc0__matmul_bias_relu_kernel_eq_skeleton]; unfold cc0__matmul_bias_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0RunB.lean ====
import proofs.«427775_j1245540516174_2_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- 0 < k < 7: one product is accumulated onto what the point before left; nothing is stored out. -/
noncomputable def kernelRun0_B (c : Dev nD) (i : grid0.Coords) (arg2 : Memref sig .tc .vmem S1024x8192 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 EltTy.bf16) (harg5 : arg5.IsWhole) (arg6 : Memref sig .tc .vmem S1024x1024 .f32) (harg6 : arg6.IsWhole) (hc0 : ¬cond0_0 i) (hc1 : ¬cond0_1 i)
    (x0 : Vec F S1024x8192 .bf16) (x1 : Vec F S1024x1024 .bf16) (x2 : Vec F S1x1024 .f32) (xs0 : Vec F S1024x1024 .f32) :
    Σ' (L3 : List (View.Piece (Elt F) S1024x1024 EltTy.bf16)), { LS0 : List (View.Piece (Elt F) S1024x1024 .f32) //
      ∀ (xi3 : Vec F S1024x1024 EltTy.bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_relu_kernel i arg2 harg2 arg3 harg3 arg4 harg4 arg5 harg5 arg6 harg6) K } := by
  refine ⟨[], ?_, fun xi3 E K => ?run⟩
  case run =>
    simp only [cc0__matmul_bias_relu_kernel_eq_skeleton]; unfold cc0__matmul_bias_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0RunC.lean ====
import proofs.«427775_j1245540516174_2_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- k = 7: the last product is accumulated, then the bias is added, the sum clipped at zero and stored out. -/
noncomputable def kernelRun0_C (c : Dev nD) (i : grid0.Coords) (arg2 : Memref sig .tc .vmem S1024x8192 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 EltTy.bf16) (harg5 : arg5.IsWhole) (arg6 : Memref sig .tc .vmem S1024x1024 .f32) (harg6 : arg6.IsWhole) (hc0 : ¬cond0_0 i) (hc1 : cond0_1 i)
    (x0 : Vec F S1024x8192 .bf16) (x1 : Vec F S1024x1024 .bf16) (x2 : Vec F S1x1024 .f32) (xs0 : Vec F S1024x1024 .f32) :
    Σ' (L3 : List (View.Piece (Elt F) S1024x1024 EltTy.bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_relu_kernel i arg2 harg2 arg3 harg3 arg4 harg4 arg5 harg5 arg6 harg6) K } := by
  refine ⟨?_, ?_, fun E K => ?run⟩
  case run =>
    simp only [cc0__matmul_bias_relu_kernel_eq_skeleton]; unfold cc0__matmul_bias_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.R0Frame.lean ====
import proofs.«427775_j1245540516174_2_alg».proof.Proof.KI.R0RunA
import proofs.«427775_j1245540516174_2_alg».proof.Proof.KI.R0RunB
import proofs.«427775_j1245540516174_2_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cond0_0_of {t : Fin cfg0.N} (h : t.val % 8 = 0) : cond0_0 (grid0.coords t) := (hcond0_0 t).mpr h
theorem cond0_0_not {t : Fin cfg0.N} (h : ¬t.val % 8 = 0) : ¬cond0_0 (grid0.coords t) := fun hh => h ((hcond0_0 t).mp hh)
theorem cond0_1_of {t : Fin cfg0.N} (h : t.val % 8 = 7) : cond0_1 (grid0.coords t) := (hcond0_1 t).mpr h
theorem cond0_1_not {t : Fin cfg0.N} (h : ¬t.val % 8 = 7) : ¬cond0_1 (grid0.coords t) := fun hh => h ((hcond0_1 t).mp hh)

/-- The body's three runs at grid point `t`. -/
abbrev runAt0_A (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) scM0_0 (Memref.isWhole_whole _) (cond0_0_of h0) (cond0_1_not h1)
abbrev runAt0_B (c : Dev nD) (t : Fin cfg0.N) (h0 : ¬t.val % 8 = 0) (h1 : ¬t.val % 8 = 7) :=
  kernelRun0_B (F := F) c (grid0.coords t) (ms0_0 t) (hs0_0 t) (ms0_1 t) (hs0_1 t) (ms0_2 t) (hs0_2 t) (ms0_3 t) (hs0_3 t) scM0_0 (Memref.isWhole_whole _) (cond0_0_not h0) (cond0_1_not h1)
abbrev runAt0_C (c : Dev nD) (t : Fin cfg0.N) (h0 : ¬t.val % 8 = 0) (h1 : t.val % 8 = 7) :=
  kernelRun0_C (F := F) c (grid0.coords t) (ms0_0 t) (hs0_0 t) (ms0_1 t) (hs0_1 t) (ms0_2 t) (hs0_2 t) (ms0_3 t) (hs0_3 t) scM0_0 (Memref.isWhole_whole _) (cond0_0_not h0) (cond0_1_of h1)

/-- What a list of stores leaves in the output tile, and in the accumulator. -/
def out0_of (L : List (View.Piece (Elt F) S1024x1024 EltTy.bf16)) : Vec F S1024x1024 EltTy.bf16 :=
  VO0_3.read (Elt F) (VO0_3.writes (Elt F) VO0_3.junk L)
def sout0_of (L : List (View.Piece (Elt F) S1024x1024 .f32)) : Vec F S1024x1024 .f32 :=
  VS0_0.read (Elt F) (VS0_0.writes (Elt F) VS0_0.junk L)

theorem scover0_A (c : Dev nD) (t : Fin cfg0.N) (h0 h1) (x0 x1 x2) (y : S1024x1024.Idx) :
    ∃ pc ∈ (runAt0_A (F := F) c t h0 h1 x0 x1 x2).2.1, y ∈ pc.1.set :=
  View.cover_of_tiledL _ S1024x1024.size (by sl_kernel_rfl) y
theorem scover0_B (c : Dev nD) (t : Fin cfg0.N) (h0 h1) (x0 x1 x2 xs) (y : S1024x1024.Idx) :
    ∃ pc ∈ (runAt0_B (F := F) c t h0 h1 x0 x1 x2 xs).2.1, y ∈ pc.1.set :=
  View.cover_of_tiledL _ S1024x1024.size (by sl_kernel_rfl) y
theorem scover0_C (c : Dev nD) (t : Fin cfg0.N) (h0 h1) (x0 x1 x2 xs) (y : S1024x1024.Idx) :
    ∃ pc ∈ (runAt0_C (F := F) c t h0 h1 x0 x1 x2 xs).2.1, y ∈ pc.1.set :=
  View.cover_of_tiledL _ S1024x1024.size (by sl_kernel_rfl) y
theorem cover0_C (c : Dev nD) (t : Fin cfg0.N) (h0 h1) (x0 x1 x2 xs) (y : S1024x1024.Idx) :
    ∃ pc ∈ (runAt0_C (F := F) c t h0 h1 x0 x1 x2 xs).1, y ∈ pc.1.set :=
  View.cover_of_tiledL _ S1024x1024.size (by sl_kernel_rfl) y

/-- What point `t` leaves in (the output tile, the accumulator), given what the point before left in the accumulator:
    at k = 0 the accumulator is cleared first, so `prev` is not read; only k = 7 stores the output tile. -/
def stepAt0 (c : Dev nD) (t : Fin cfg0.N) (prev : Vec F S1024x1024 .f32) : Vec F S1024x1024 EltTy.bf16 × Vec F S1024x1024 .f32 :=
  if h0 : t.val % 8 = 0 then
    (out0_of [], sout0_of (runAt0_A c t h0 (by omega) (iblk0 V c 0 t) (iblk0 V c 1 t) (iblk0 V c 2 t)).2.1)
  else if h1 : t.val % 8 = 7 then
    (out0_of (runAt0_C c t h0 h1 (iblk0 V c 0 t) (iblk0 V c 1 t) (iblk0 V c 2 t) prev).1, sout0_of (runAt0_C c t h0 h1 (iblk0 V c 0 t) (iblk0 V c 1 t) (iblk0 V c 2 t) prev).2.1)
  else
    (out0_of [], sout0_of (runAt0_B c t h0 h1 (iblk0 V c 0 t) (iblk0 V c 1 t) (iblk0 V c 2 t) prev).2.1)

def outsAt0 (c : Dev nD) : (n : ℕ) → n < cfg0.N → Vec F S1024x1024 EltTy.bf16 × Vec F S1024x1024 .f32
  | 0, hn => stepAt0 V c ⟨0, hn⟩ (sout0_of [])
  | n + 1, hn => stepAt0 V c ⟨n + 1, hn⟩ (outsAt0 c n (Nat.lt_of_succ_lt hn)).2

theorem outsAt0_A (c : Dev nD) (t : Fin cfg0.N) (h0 : t.val % 8 = 0) (h1 : ¬t.val % 8 = 7) :
    outsAt0 V c t.val t.isLt = (out0_of [], sout0_of (runAt0_A c t h0 h1 (iblk0 V c 0 t) (iblk0 V c 1 t) (iblk0 V c 2 t)).2.1) := by
  obtain ⟨n, hn⟩ := t
  cases n <;> (show stepAt0 V c _ _ = _; unfold stepAt0; exact dif_pos h0)

theorem outsAt0_B (c : Dev nD) (t : Fin cfg0.N) (h0 : ¬t.val % 8 = 0) (h1 : ¬t.val % 8 = 7) :
    outsAt0 V c t.val t.isLt = (out0_of [], sout0_of (runAt0_B c t h0 h1 (iblk0 V c 0 t) (iblk0 V c 1 t) (iblk0 V c 2 t) (outsAt0 V c (t.val - 1) (Nat.lt_of_le_of_lt (Nat.sub_le _ _) t.isLt)).2).2.1) := by
  obtain ⟨n, hn⟩ := t
  cases n with
  | zero => exact absurd (Nat.zero_mod _) h0
  | succ n => show stepAt0 V c ⟨n + 1, hn⟩ _ = _; unfold stepAt0; exact (dif_neg h0).trans (dif_neg h1)

theorem outsAt0_C (c : Dev nD) (t : Fin cfg0.N) (h0 : ¬t.val % 8 = 0) (h1 : t.val % 8 = 7) :
    outsAt0 V c t.val t.isLt = (out0_of (runAt0_C c t h0 h1 (iblk0 V c 0 t) (iblk0 V c 1 t) (iblk0 V c 2 t) (outsAt0 V c (t.val - 1) (Nat.lt_of_le_of_lt (Nat.sub_le _ _) t.isLt)).2).1, sout0_of (runAt0_C c t h0 h1 (iblk0 V c 0 t) (iblk0 V c 1 t) (iblk0 V c 2 t) (outsAt0 V c (t.val - 1) (Nat.lt_of_le_of_lt (Nat.sub_le _ _) t.isLt)).2).2.1) := by
  obtain ⟨n, hn⟩ := t
  cases n with
  | zero => exact absurd (Nat.zero_mod _) h0
  | succ n => show stepAt0 V c ⟨n + 1, hn⟩ _ = _; unfold stepAt0; exact (dif_neg h0).trans (dif_pos h1)

/-- The call's invariant before position `n`: from the second point on, the accumulator holds what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-- At any position the invariant holds the accumulator at some contents, which is all a point that clears it first needs. -/
theorem PhiS0_any (c : Dev nD) (n : ℕ) (h : n ≤ cfg0.N) :
    PhiS0 V c n h ⊢ iprop(iprop((∃ d, owns (c : Thread nD τ) scM0_0 fullShare d) ∗ others0 (F := F) c) ∗ (∃ r, prngReg c r)) := by
  cases n with
  | zero => rw [show PhiS0 V c 0 h = Pipeline.ΦA spec0 c from rfl, PhiA0_eq]
  | succ n =>
    rw [PhiS0_succ]
    iintro ⟨⟨HS0, Hr⟩, Hg⟩
    isplitl [HS0 Hr]
    · isplitl [HS0]
      · iexists _; iexact HS0
      iexact Hr
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl

theorem before0_0 (c : Dev nD) (t : Fin cfg0.N) (d) : (dat0 V c).before 0 t d = iblk0 V c 0 t :=
  before0_0_of V (dat0 V c) rfl (fun _ => rfl) t d
theorem before0_1 (c : Dev nD) (t : Fin cfg0.N) (d) : (dat0 V c).before 1 t d = iblk0 V c 1 t :=
  before0_1_of V (dat0 V c) rfl (fun _ => rfl) t d
theorem before0_2 (c : Dev nD) (t : Fin cfg0.N) (d) : (dat0 V c).before 2 t d = iblk0 V c 2 t :=
  before0_2_of V (dat0 V c) rfl (fun _ => rfl) t d

theorem leaves0_0 (c : Dev nD) (t : Fin cfg0.N) : (dat0 V c).leavesExact 0 t = owns (c : Thread nD τ) (ms0_0 t) fullShare (iblk0 V c 0 t) := by
  unfold Dat.leavesExact; rw [liveAt0_0 t]; rfl
theorem leaves0_1 (c : Dev nD) (t : Fin cfg0.N) : (dat0 V c).leavesExact 1 t = owns (c : Thread nD τ) (ms0_1 t) fullShare (iblk0 V c 1 t) := by
  unfold Dat.leavesExact; rw [liveAt0_1 t]; rfl
theorem leaves0_2 (c : Dev nD) (t : Fin cfg0.N) : (dat0 V c).leavesExact 2 t = owns (c : Thread nD τ) (ms0_2 t) fullShare (iblk0 V c 2 t) := by
  unfold Dat.leavesExact; rw [liveAt0_2 t]; rfl
theorem leaves0_3_idle (c : Dev nD) (t : Fin cfg0.N) (h1 : ¬t.val % 8 = 7) :
    (dat0 V c).leavesExact 3 t = iprop(∃ d, owns (c : Thread nD τ) (ms0_3 t) fullShare ((dat0 V c).before 3 t d)) :=
  Dat.leavesExact_idle (dat0 V c) 3 t (idleAt0_3 t (cond0_1_not h1)) (noFlush0_3 t (cond0_1_not h1))
theorem leaves0_3_live (c : Dev nD) (t : Fin cfg0.N) (h1 : t.val % 8 = 7) :
    (dat0 V c).leavesExact 3 t = owns (c : Thread nD τ) (ms0_3 t) fullShare (outsAt0 V c t.val t.isLt).1 := by
  unfold Dat.leavesExact; rw [liveAt0_3 t (cond0_1_of h1)]; rfl

/-- The body at any point: t mod 8 says which run applies; the invariant hands over the accumulator and takes it back at this point's contents. -/
theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t)) := by
  unfold bodyAt0
  simp only [before0_0, before0_1, before0_2, leaves0_0, leaves0_1, leaves0_2]
  rw [show (dat0 V c).owesAt () t.succ = (dat0 V c).owesAt () t.castSucc from rfl,
    show (dat0 V c).Φ t.succ = PhiS0 V c (t.val + 1) t.isLt from rfl,
    PhiS0_succ,
    show (dat0 V c).Φ t.castSucc = PhiS0 V c t.val (Nat.le_of_lt t.isLt) from by dsimp only [dat0]; simp only [Fin.coe_castSucc]]
  have hN : t.val < 64 := lt_of_lt_of_eq t.isLt (show cfg0.N = 64 from N_0)
  by_cases h0 : t.val % 8 = 0
  · have h1 : ¬t.val % 8 = 7 := by omega
    rw [leaves0_3_idle V c t h1, outsAt0_A V c t h0 h1]
    dsimp only
    iintro ⟨HΦ, Ho, ⟨%d0, H0⟩, ⟨%d1, H1⟩, ⟨%d2, H2⟩, ⟨%d3, H3⟩⟩
    ihave HΦ' := (PhiS0_any V c _ _) $$ HΦ
    icases HΦ' with ⟨⟨HS0, Hr⟩, Hg⟩
    iapply ((runAt0_A c t h0 h1 (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hr Hg]
    · isplitl [HS0 Hr]
      · isplitl [HS0]
        · unfold owns sout0_of; iexists _; isplitr
          swap; · iexact HS0
          ipureintro; exact View.read_writes_of_cover _ _ _ _ _ (scover0_A c t h0 h1 _ _ _)
        iexact Hr
      iexact Hg
    isplitl [Ho]; · iexact Ho
    isplitl [H0]; · iexact H0
    isplitl [H1]; · iexact H1
    isplitl [H2]; · iexact H2
    iexists _; iexact H3
  · have hz : t.val ≠ 0 := by omega
    rw [PhiS0_pos V c _ _ hz]
    by_cases h1 : t.val % 8 = 7
    · rw [leaves0_3_live V c t h1, outsAt0_C V c t h0 h1]
      dsimp only
      iintro ⟨⟨⟨HS0, Hr⟩, Hg⟩, Ho, ⟨%d0, H0⟩, ⟨%d1, H1⟩, ⟨%d2, H2⟩, ⟨%d3, H3⟩⟩
      iapply ((runAt0_C c t h0 h1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns sout0_of; iexists _; isplitr
            swap; · iexact HS0
            ipureintro; exact View.read_writes_of_cover _ _ _ _ _ (scover0_C c t h0 h1 _ _ _ _)
          iexact Hr
        iexact Hg
      isplitl [Ho]; · iexact Ho
      isplitl [H0]; · iexact H0
      isplitl [H1]; · iexact H1
      isplitl [H2]; · iexact H2
      unfold owns out0_of; iexists _; isplitr
      swap; · iexact H3
      ipureintro; exact View.read_writes_of_cover _ _ _ _ _ (cover0_C c t h0 h1 _ _ _ _)
    · rw [leaves0_3_idle V c t h1, outsAt0_B V c t h0 h1]
      dsimp only
      iintro ⟨⟨⟨HS0, Hr⟩, Hg⟩, Ho, ⟨%d0, H0⟩, ⟨%d1, H1⟩, ⟨%d2, H2⟩, ⟨%d3, H3⟩⟩
      iapply ((runAt0_B c t h0 h1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns sout0_of; iexists _; isplitr
            swap; · iexact HS0
            ipureintro; exact View.read_writes_of_cover _ _ _ _ _ (scover0_B c t h0 h1 _ _ _ _)
          iexact Hr
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

/-- After the last point the accumulator's named contents are forgotten. -/
theorem hout0 (c : Dev nD) : (dat0 V c).Φ (Fin.last cfg0.N) ⊢ Pipeline.ΦA spec0 c := by
  rw [PhiA0_eq]; exact PhiS0_any V c (Fin.last cfg0.N).val (Nat.le_of_lt_succ (Fin.last cfg0.N).isLt)

end Cert.KernelIdeal.Fr

end
-- ==== Proof.KI.R1Runs.lean ====
import proofs.«427775_j1245540516174_2_alg».proof.Proof.Gen.KernelIdeal.Launch
import proofs.«427775_j1245540516174_2_alg».proof.Proof.Gen.KernelIdeal.Skeleton
import proofs.«427775_j1245540516174_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's two conditions at point t = 8 · n + k: this one is k = 0 (the accumulator is cleared), -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- and this one is k = 7 (the output tile is stored). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

abbrev VO1_3 : View sig .tc .vmem S1024x1024 EltTy.bf16 := (Memref.whole cc1_stg3_0 : Memref sig .tc .vmem S1024x1024 EltTy.bf16).view
abbrev ms1_0 (t : Fin cfg1.N) : Memref sig .tc .vmem S1024x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 EltTy.bf16 := win1_3.stage (cfg1.slots t 3)
abbrev hs1_3 (t : Fin cfg1.N) : (ms1_3 t).IsWhole := hstage1_3 ((cfg1.slots t 3).cast nbuf1_3)

abbrev scM1_0 : Memref sig .tc .vmem S1024x1024 .f32 := Memref.whole cc1_scratch0
abbrev VS1_0 : View sig .tc .vmem S1024x1024 .f32 := scM1_0.view

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [scM1_0, owns_whole, bigSepL_singleton]
  try rfl

end Cert.KernelIdeal.Fr

end
-- ==== Proof.KI.R1RunA.lean ====
import proofs.«427775_j1245540516174_2_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- k = 0: the accumulator is cleared, then one product is accumulated; nothing is stored out. The lists of stores are found by running the body. -/
noncomputable def kernelRun1_A (c : Dev nD) (i : grid1.Coords) (arg2 : Memref sig .tc .vmem S1024x8192 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 EltTy.bf16) (harg5 : arg5.IsWhole) (arg6 : Memref sig .tc .vmem S1024x1024 .f32) (harg6 : arg6.IsWhole) (hc0 : cond1_0 i) (hc1 : ¬cond1_1 i)
    (x0 : Vec F S1024x8192 .bf16) (x1 : Vec F S1024x1024 .bf16) (x2 : Vec F S1x1024 .f32) :
    Σ' (L3 : List (View.Piece (Elt F) S1024x1024 EltTy.bf16)), { LS0 : List (View.Piece (Elt F) S1024x1024 .f32) //
      ∀ (xi3 : Vec F S1024x1024 EltTy.bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_relu_kernel i arg2 harg2 arg3 harg3 arg4 harg4 arg5 harg5 arg6 harg6) K } := by
  refine ⟨[], ?_, fun xi3 E K => ?run⟩
  case run =>
    simp only [cc1__matmul_bias_relu_kernel_eq_skeleton]; unfold cc1__matmul_bias_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R1RunB.lean ====
import proofs.«427775_j1245540516174_2_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- 0 < k < 7: one product is accumulated onto what the point before left; nothing is stored out. -/
noncomputable def kernelRun1_B (c : Dev nD) (i : grid1.Coords) (arg2 : Memref sig .tc .vmem S1024x8192 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 EltTy.bf16) (harg5 : arg5.IsWhole) (arg6 : Memref sig .tc .vmem S1024x1024 .f32) (harg6 : arg6.IsWhole) (hc0 : ¬cond1_0 i) (hc1 : ¬cond1_1 i)
    (x0 : Vec F S1024x8192 .bf16) (x1 : Vec F S1024x1024 .bf16) (x2 : Vec F S1x1024 .f32) (xs0 : Vec F S1024x1024 .f32) :
    Σ' (L3 : List (View.Piece (Elt F) S1024x1024 EltTy.bf16)), { LS0 : List (View.Piece (Elt F) S1024x1024 .f32) //
      ∀ (xi3 : Vec F S1024x1024 EltTy.bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_relu_kernel i arg2 harg2 arg3 harg3 arg4 harg4 arg5 harg5 arg6 harg6) K } := by
  refine ⟨[], ?_, fun xi3 E K => ?run⟩
  case run =>
    simp only [cc1__matmul_bias_relu_kernel_eq_skeleton]; unfold cc1__matmul_bias_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R1RunC.lean ====
import proofs.«427775_j1245540516174_2_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- k = 7: the last product is accumulated, then the bias is added, the sum clipped at zero and stored out. -/
noncomputable def kernelRun1_C (c : Dev nD) (i : grid1.Coords) (arg2 : Memref sig .tc .vmem S1024x8192 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 EltTy.bf16) (harg5 : arg5.IsWhole) (arg6 : Memref sig .tc .vmem S1024x1024 .f32) (harg6 : arg6.IsWhole) (hc0 : ¬cond1_0 i) (hc1 : cond1_1 i)
    (x0 : Vec F S1024x8192 .bf16) (x1 : Vec F S1024x1024 .bf16) (x2 : Vec F S1x1024 .f32) (xs0 : Vec F S1024x1024 .f32) :
    Σ' (L3 : List (View.Piece (Elt F) S1024x1024 EltTy.bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_relu_kernel i arg2 harg2 arg3 harg3 arg4 harg4 arg5 harg5 arg6 harg6) K } := by
  refine ⟨?_, ?_, fun E K => ?run⟩
  case run =>
    simp only [cc1__matmul_bias_relu_kernel_eq_skeleton]; unfold cc1__matmul_bias_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.R1Frame.lean ====
import proofs.«427775_j1245540516174_2_alg».proof.Proof.KI.R1RunA
import proofs.«427775_j1245540516174_2_alg».proof.Proof.KI.R1RunB
import proofs.«427775_j1245540516174_2_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cond1_0_of {t : Fin cfg1.N} (h : t.val % 8 = 0) : cond1_0 (grid1.coords t) := (hcond1_0 t).mpr h
theorem cond1_0_not {t : Fin cfg1.N} (h : ¬t.val % 8 = 0) : ¬cond1_0 (grid1.coords t) := fun hh => h ((hcond1_0 t).mp hh)
theorem cond1_1_of {t : Fin cfg1.N} (h : t.val % 8 = 7) : cond1_1 (grid1.coords t) := (hcond1_1 t).mpr h
theorem cond1_1_not {t : Fin cfg1.N} (h : ¬t.val % 8 = 7) : ¬cond1_1 (grid1.coords t) := fun hh => h ((hcond1_1 t).mp hh)

/-- The body's three runs at grid point `t`. -/
abbrev runAt1_A (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) scM1_0 (Memref.isWhole_whole _) (cond1_0_of h0) (cond1_1_not h1)
abbrev runAt1_B (c : Dev nD) (t : Fin cfg1.N) (h0 : ¬t.val % 8 = 0) (h1 : ¬t.val % 8 = 7) :=
  kernelRun1_B (F := F) c (grid1.coords t) (ms1_0 t) (hs1_0 t) (ms1_1 t) (hs1_1 t) (ms1_2 t) (hs1_2 t) (ms1_3 t) (hs1_3 t) scM1_0 (Memref.isWhole_whole _) (cond1_0_not h0) (cond1_1_not h1)
abbrev runAt1_C (c : Dev nD) (t : Fin cfg1.N) (h0 : ¬t.val % 8 = 0) (h1 : t.val % 8 = 7) :=
  kernelRun1_C (F := F) c (grid1.coords t) (ms1_0 t) (hs1_0 t) (ms1_1 t) (hs1_1 t) (ms1_2 t) (hs1_2 t) (ms1_3 t) (hs1_3 t) scM1_0 (Memref.isWhole_whole _) (cond1_0_not h0) (cond1_1_of h1)

/-- What a list of stores leaves in the output tile, and in the accumulator. -/
def out1_of (L : List (View.Piece (Elt F) S1024x1024 EltTy.bf16)) : Vec F S1024x1024 EltTy.bf16 :=
  VO1_3.read (Elt F) (VO1_3.writes (Elt F) VO1_3.junk L)
def sout1_of (L : List (View.Piece (Elt F) S1024x1024 .f32)) : Vec F S1024x1024 .f32 :=
  VS1_0.read (Elt F) (VS1_0.writes (Elt F) VS1_0.junk L)

theorem scover1_A (c : Dev nD) (t : Fin cfg1.N) (h0 h1) (x0 x1 x2) (y : S1024x1024.Idx) :
    ∃ pc ∈ (runAt1_A (F := F) c t h0 h1 x0 x1 x2).2.1, y ∈ pc.1.set :=
  View.cover_of_tiledL _ S1024x1024.size (by sl_kernel_rfl) y
theorem scover1_B (c : Dev nD) (t : Fin cfg1.N) (h0 h1) (x0 x1 x2 xs) (y : S1024x1024.Idx) :
    ∃ pc ∈ (runAt1_B (F := F) c t h0 h1 x0 x1 x2 xs).2.1, y ∈ pc.1.set :=
  View.cover_of_tiledL _ S1024x1024.size (by sl_kernel_rfl) y
theorem scover1_C (c : Dev nD) (t : Fin cfg1.N) (h0 h1) (x0 x1 x2 xs) (y : S1024x1024.Idx) :
    ∃ pc ∈ (runAt1_C (F := F) c t h0 h1 x0 x1 x2 xs).2.1, y ∈ pc.1.set :=
  View.cover_of_tiledL _ S1024x1024.size (by sl_kernel_rfl) y
theorem cover1_C (c : Dev nD) (t : Fin cfg1.N) (h0 h1) (x0 x1 x2 xs) (y : S1024x1024.Idx) :
    ∃ pc ∈ (runAt1_C (F := F) c t h0 h1 x0 x1 x2 xs).1, y ∈ pc.1.set :=
  View.cover_of_tiledL _ S1024x1024.size (by sl_kernel_rfl) y

/-- What point `t` leaves in (the output tile, the accumulator), given what the point before left in the accumulator:
    at k = 0 the accumulator is cleared first, so `prev` is not read; only k = 7 stores the output tile. -/
def stepAt1 (c : Dev nD) (t : Fin cfg1.N) (prev : Vec F S1024x1024 .f32) : Vec F S1024x1024 EltTy.bf16 × Vec F S1024x1024 .f32 :=
  if h0 : t.val % 8 = 0 then
    (out1_of [], sout1_of (runAt1_A c t h0 (by omega) (iblk1 V c 0 t) (iblk1 V c 1 t) (iblk1 V c 2 t)).2.1)
  else if h1 : t.val % 8 = 7 then
    (out1_of (runAt1_C c t h0 h1 (iblk1 V c 0 t) (iblk1 V c 1 t) (iblk1 V c 2 t) prev).1, sout1_of (runAt1_C c t h0 h1 (iblk1 V c 0 t) (iblk1 V c 1 t) (iblk1 V c 2 t) prev).2.1)
  else
    (out1_of [], sout1_of (runAt1_B c t h0 h1 (iblk1 V c 0 t) (iblk1 V c 1 t) (iblk1 V c 2 t) prev).2.1)

def outsAt1 (c : Dev nD) : (n : ℕ) → n < cfg1.N → Vec F S1024x1024 EltTy.bf16 × Vec F S1024x1024 .f32
  | 0, hn => stepAt1 V c ⟨0, hn⟩ (sout1_of [])
  | n + 1, hn => stepAt1 V c ⟨n + 1, hn⟩ (outsAt1 c n (Nat.lt_of_succ_lt hn)).2

theorem outsAt1_A (c : Dev nD) (t : Fin cfg1.N) (h0 : t.val % 8 = 0) (h1 : ¬t.val % 8 = 7) :
    outsAt1 V c t.val t.isLt = (out1_of [], sout1_of (runAt1_A c t h0 h1 (iblk1 V c 0 t) (iblk1 V c 1 t) (iblk1 V c 2 t)).2.1) := by
  obtain ⟨n, hn⟩ := t
  cases n <;> (show stepAt1 V c _ _ = _; unfold stepAt1; exact dif_pos h0)

theorem outsAt1_B (c : Dev nD) (t : Fin cfg1.N) (h0 : ¬t.val % 8 = 0) (h1 : ¬t.val % 8 = 7) :
    outsAt1 V c t.val t.isLt = (out1_of [], sout1_of (runAt1_B c t h0 h1 (iblk1 V c 0 t) (iblk1 V c 1 t) (iblk1 V c 2 t) (outsAt1 V c (t.val - 1) (Nat.lt_of_le_of_lt (Nat.sub_le _ _) t.isLt)).2).2.1) := by
  obtain ⟨n, hn⟩ := t
  cases n with
  | zero => exact absurd (Nat.zero_mod _) h0
  | succ n => show stepAt1 V c ⟨n + 1, hn⟩ _ = _; unfold stepAt1; exact (dif_neg h0).trans (dif_neg h1)

theorem outsAt1_C (c : Dev nD) (t : Fin cfg1.N) (h0 : ¬t.val % 8 = 0) (h1 : t.val % 8 = 7) :
    outsAt1 V c t.val t.isLt = (out1_of (runAt1_C c t h0 h1 (iblk1 V c 0 t) (iblk1 V c 1 t) (iblk1 V c 2 t) (outsAt1 V c (t.val - 1) (Nat.lt_of_le_of_lt (Nat.sub_le _ _) t.isLt)).2).1, sout1_of (runAt1_C c t h0 h1 (iblk1 V c 0 t) (iblk1 V c 1 t) (iblk1 V c 2 t) (outsAt1 V c (t.val - 1) (Nat.lt_of_le_of_lt (Nat.sub_le _ _) t.isLt)).2).2.1) := by
  obtain ⟨n, hn⟩ := t
  cases n with
  | zero => exact absurd (Nat.zero_mod _) h0
  | succ n => show stepAt1 V c ⟨n + 1, hn⟩ _ = _; unfold stepAt1; exact (dif_neg h0).trans (dif_pos h1)

/-- The call's invariant before position `n`: from the second point on, the accumulator holds what the point before left. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-- At any position the invariant holds the accumulator at some contents, which is all a point that clears it first needs. -/
theorem PhiS1_any (c : Dev nD) (n : ℕ) (h : n ≤ cfg1.N) :
    PhiS1 V c n h ⊢ iprop(iprop((∃ d, owns (c : Thread nD τ) scM1_0 fullShare d) ∗ others1 (F := F) c) ∗ (∃ r, prngReg c r)) := by
  cases n with
  | zero => rw [show PhiS1 V c 0 h = Pipeline.ΦA spec1 c from rfl, PhiA1_eq]
  | succ n =>
    rw [PhiS1_succ]
    iintro ⟨⟨HS0, Hr⟩, Hg⟩
    isplitl [HS0 Hr]
    · isplitl [HS0]
      · iexists _; iexact HS0
      iexact Hr
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  before1_0_of V (dat1 V c) rfl (fun _ => rfl) t d
theorem before1_1 (c : Dev nD) (t : Fin cfg1.N) (d) : (dat1 V c).before 1 t d = iblk1 V c 1 t :=
  before1_1_of V (dat1 V c) rfl (fun _ => rfl) t d
theorem before1_2 (c : Dev nD) (t : Fin cfg1.N) (d) : (dat1 V c).before 2 t d = iblk1 V c 2 t :=
  before1_2_of V (dat1 V c) rfl (fun _ => rfl) t d

theorem leaves1_0 (c : Dev nD) (t : Fin cfg1.N) : (dat1 V c).leavesExact 0 t = owns (c : Thread nD τ) (ms1_0 t) fullShare (iblk1 V c 0 t) := by
  unfold Dat.leavesExact; rw [liveAt1_0 t]; rfl
theorem leaves1_1 (c : Dev nD) (t : Fin cfg1.N) : (dat1 V c).leavesExact 1 t = owns (c : Thread nD τ) (ms1_1 t) fullShare (iblk1 V c 1 t) := by
  unfold Dat.leavesExact; rw [liveAt1_1 t]; rfl
theorem leaves1_2 (c : Dev nD) (t : Fin cfg1.N) : (dat1 V c).leavesExact 2 t = owns (c : Thread nD τ) (ms1_2 t) fullShare (iblk1 V c 2 t) := by
  unfold Dat.leavesExact; rw [liveAt1_2 t]; rfl
theorem leaves1_3_idle (c : Dev nD) (t : Fin cfg1.N) (h1 : ¬t.val % 8 = 7) :
    (dat1 V c).leavesExact 3 t = iprop(∃ d, owns (c : Thread nD τ) (ms1_3 t) fullShare ((dat1 V c).before 3 t d)) :=
  Dat.leavesExact_idle (dat1 V c) 3 t (idleAt1_3 t (cond1_1_not h1)) (noFlush1_3 t (cond1_1_not h1))
theorem leaves1_3_live (c : Dev nD) (t : Fin cfg1.N) (h1 : t.val % 8 = 7) :
    (dat1 V c).leavesExact 3 t = owns (c : Thread nD τ) (ms1_3 t) fullShare (outsAt1 V c t.val t.isLt).1 := by
  unfold Dat.leavesExact; rw [liveAt1_3 t (cond1_1_of h1)]; rfl

/-- The body at any point: t mod 8 says which run applies; the invariant hands over the accumulator and takes it back at this point's contents. -/
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t)) := by
  unfold bodyAt1
  simp only [before1_0, before1_1, before1_2, leaves1_0, leaves1_1, leaves1_2]
  rw [show (dat1 V c).owesAt () t.succ = (dat1 V c).owesAt () t.castSucc from rfl,
    show (dat1 V c).Φ t.succ = PhiS1 V c (t.val + 1) t.isLt from rfl,
    PhiS1_succ,
    show (dat1 V c).Φ t.castSucc = PhiS1 V c t.val (Nat.le_of_lt t.isLt) from by dsimp only [dat1]; simp only [Fin.coe_castSucc]]
  have hN : t.val < 64 := lt_of_lt_of_eq t.isLt (show cfg1.N = 64 from N_1)
  by_cases h0 : t.val % 8 = 0
  · have h1 : ¬t.val % 8 = 7 := by omega
    rw [leaves1_3_idle V c t h1, outsAt1_A V c t h0 h1]
    dsimp only
    iintro ⟨HΦ, Ho, ⟨%d0, H0⟩, ⟨%d1, H1⟩, ⟨%d2, H2⟩, ⟨%d3, H3⟩⟩
    ihave HΦ' := (PhiS1_any V c _ _) $$ HΦ
    icases HΦ' with ⟨⟨HS0, Hr⟩, Hg⟩
    iapply ((runAt1_A c t h0 h1 (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hr Hg]
    · isplitl [HS0 Hr]
      · isplitl [HS0]
        · unfold owns sout1_of; iexists _; isplitr
          swap; · iexact HS0
          ipureintro; exact View.read_writes_of_cover _ _ _ _ _ (scover1_A c t h0 h1 _ _ _)
        iexact Hr
      iexact Hg
    isplitl [Ho]; · iexact Ho
    isplitl [H0]; · iexact H0
    isplitl [H1]; · iexact H1
    isplitl [H2]; · iexact H2
    iexists _; iexact H3
  · have hz : t.val ≠ 0 := by omega
    rw [PhiS1_pos V c _ _ hz]
    by_cases h1 : t.val % 8 = 7
    · rw [leaves1_3_live V c t h1, outsAt1_C V c t h0 h1]
      dsimp only
      iintro ⟨⟨⟨HS0, Hr⟩, Hg⟩, Ho, ⟨%d0, H0⟩, ⟨%d1, H1⟩, ⟨%d2, H2⟩, ⟨%d3, H3⟩⟩
      iapply ((runAt1_C c t h0 h1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns sout1_of; iexists _; isplitr
            swap; · iexact HS0
            ipureintro; exact View.read_writes_of_cover _ _ _ _ _ (scover1_C c t h0 h1 _ _ _ _)
          iexact Hr
        iexact Hg
      isplitl [Ho]; · iexact Ho
      isplitl [H0]; · iexact H0
      isplitl [H1]; · iexact H1
      isplitl [H2]; · iexact H2
      unfold owns out1_of; iexists _; isplitr
      swap; · iexact H3
      ipureintro; exact View.read_writes_of_cover _ _ _ _ _ (cover1_C c t h0 h1 _ _ _ _)
    · rw [leaves1_3_idle V c t h1, outsAt1_B V c t h0 h1]
      dsimp only
      iintro ⟨⟨⟨HS0, Hr⟩, Hg⟩, Ho, ⟨%d0, H0⟩, ⟨%d1, H1⟩, ⟨%d2, H2⟩, ⟨%d3, H3⟩⟩
      iapply ((runAt1_B c t h0 h1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns sout1_of; iexists _; isplitr
            swap; · iexact HS0
            ipureintro; exact View.read_writes_of_cover _ _ _ _ _ (scover1_B c t h0 h1 _ _ _ _)
          iexact Hr
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

/-- After the last point the accumulator's named contents are forgotten. -/
theorem hout1 (c : Dev nD) : (dat1 V c).Φ (Fin.last cfg1.N) ⊢ Pipeline.ΦA spec1 c := by
  rw [PhiA1_eq]; exact PhiS1_any V c (Fin.last cfg1.N).val (Nat.le_of_lt_succ (Fin.last cfg1.N).isLt)

end Cert.KernelIdeal.Fr

end
-- ==== Proof.KI.R2Runs.lean ====
import proofs.«427775_j1245540516174_2_alg».proof.Proof.Gen.KernelIdeal.Launch
import proofs.«427775_j1245540516174_2_alg».proof.Proof.Gen.KernelIdeal.Skeleton
import proofs.«427775_j1245540516174_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's two conditions at point t = 8 · n + k: this one is k = 0 (the accumulator is cleared), -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- and this one is k = 7 (the output tile is stored). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel

theorem liveAt2_3 : ∀ t : Fin cfg2.N, cond2_1 (grid2.coords t) → cfg2.idle 3 (grid2.coords t) = false := by decide +kernel

abbrev VO2_3 : View sig .tc .vmem S1024x1024 EltTy.f32 := (Memref.whole cc2_stg3_0 : Memref sig .tc .vmem S1024x1024 EltTy.f32).view
abbrev ms2_0 (t : Fin cfg2.N) : Memref sig .tc .vmem S1024x8192 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 EltTy.f32 := win2_3.stage (cfg2.slots t 3)
abbrev hs2_3 (t : Fin cfg2.N) : (ms2_3 t).IsWhole := hstage2_3 ((cfg2.slots t 3).cast nbuf2_3)

abbrev scM2_0 : Memref sig .tc .vmem S1024x1024 .f32 := Memref.whole cc2_scratch0
abbrev VS2_0 : View sig .tc .vmem S1024x1024 .f32 := scM2_0.view

abbrev others2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA
  rw [Pipeline.scopedRest_split_of_list spec2 c [cc2_scratch0] (by decide) (by decide)]
  simp only [scM2_0, owns_whole, bigSepL_singleton]
  try rfl

end Cert.KernelIdeal.Fr

end
-- ==== Proof.KI.R2RunA.lean ====
import proofs.«427775_j1245540516174_2_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- k = 0: the accumulator is cleared, then one product is accumulated; nothing is stored out. The lists of stores are found by running the body. -/
noncomputable def kernelRun2_A (c : Dev nD) (i : grid2.Coords) (arg2 : Memref sig .tc .vmem S1024x8192 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 EltTy.f32) (harg5 : arg5.IsWhole) (arg6 : Memref sig .tc .vmem S1024x1024 .f32) (harg6 : arg6.IsWhole) (hc0 : cond2_0 i) (hc1 : ¬cond2_1 i)
    (x0 : Vec F S1024x8192 .bf16) (x1 : Vec F S1024x1024 .bf16) (x2 : Vec F S1x1024 .f32) :
    Σ' (L3 : List (View.Piece (Elt F) S1024x1024 EltTy.f32)), { LS0 : List (View.Piece (Elt F) S1024x1024 .f32) //
      ∀ (xi3 : Vec F S1024x1024 EltTy.f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_bias_relu_kernel i arg2 harg2 arg3 harg3 arg4 harg4 arg5 harg5 arg6 harg6) K } := by
  refine ⟨[], ?_, fun xi3 E K => ?run⟩
  case run =>
    simp only [cc2__matmul_bias_relu_kernel_eq_skeleton]; unfold cc2__matmul_bias_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R2RunB.lean ====
import proofs.«427775_j1245540516174_2_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- 0 < k < 7: one product is accumulated onto what the point before left; nothing is stored out. -/
noncomputable def kernelRun2_B (c : Dev nD) (i : grid2.Coords) (arg2 : Memref sig .tc .vmem S1024x8192 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 EltTy.f32) (harg5 : arg5.IsWhole) (arg6 : Memref sig .tc .vmem S1024x1024 .f32) (harg6 : arg6.IsWhole) (hc0 : ¬cond2_0 i) (hc1 : ¬cond2_1 i)
    (x0 : Vec F S1024x8192 .bf16) (x1 : Vec F S1024x1024 .bf16) (x2 : Vec F S1x1024 .f32) (xs0 : Vec F S1024x1024 .f32) :
    Σ' (L3 : List (View.Piece (Elt F) S1024x1024 EltTy.f32)), { LS0 : List (View.Piece (Elt F) S1024x1024 .f32) //
      ∀ (xi3 : Vec F S1024x1024 EltTy.f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_bias_relu_kernel i arg2 harg2 arg3 harg3 arg4 harg4 arg5 harg5 arg6 harg6) K } := by
  refine ⟨[], ?_, fun xi3 E K => ?run⟩
  case run =>
    simp only [cc2__matmul_bias_relu_kernel_eq_skeleton]; unfold cc2__matmul_bias_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R2RunC.lean ====
import proofs.«427775_j1245540516174_2_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- k = 7: the last product is accumulated, then the bias is added, the sum clipped at zero and stored out. -/
noncomputable def kernelRun2_C (c : Dev nD) (i : grid2.Coords) (arg2 : Memref sig .tc .vmem S1024x8192 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 EltTy.f32) (harg5 : arg5.IsWhole) (arg6 : Memref sig .tc .vmem S1024x1024 .f32) (harg6 : arg6.IsWhole) (hc0 : ¬cond2_0 i) (hc1 : cond2_1 i)
    (x0 : Vec F S1024x8192 .bf16) (x1 : Vec F S1024x1024 .bf16) (x2 : Vec F S1x1024 .f32) (xs0 : Vec F S1024x1024 .f32) :
    Σ' (L3 : List (View.Piece (Elt F) S1024x1024 EltTy.f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_bias_relu_kernel i arg2 harg2 arg3 harg3 arg4 harg4 arg5 harg5 arg6 harg6) K } := by
  refine ⟨?_, ?_, fun E K => ?run⟩
  case run =>
    simp only [cc2__matmul_bias_relu_kernel_eq_skeleton]; unfold cc2__matmul_bias_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.R2Frame.lean ====
import proofs.«427775_j1245540516174_2_alg».proof.Proof.KI.R2RunA
import proofs.«427775_j1245540516174_2_alg».proof.Proof.KI.R2RunB
import proofs.«427775_j1245540516174_2_alg».proof.Proof.KI.R2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cond2_0_of {t : Fin cfg2.N} (h : t.val % 8 = 0) : cond2_0 (grid2.coords t) := (hcond2_0 t).mpr h
theorem cond2_0_not {t : Fin cfg2.N} (h : ¬t.val % 8 = 0) : ¬cond2_0 (grid2.coords t) := fun hh => h ((hcond2_0 t).mp hh)
theorem cond2_1_of {t : Fin cfg2.N} (h : t.val % 8 = 7) : cond2_1 (grid2.coords t) := (hcond2_1 t).mpr h
theorem cond2_1_not {t : Fin cfg2.N} (h : ¬t.val % 8 = 7) : ¬cond2_1 (grid2.coords t) := fun hh => h ((hcond2_1 t).mp hh)

/-- The body's three runs at grid point `t`. -/
abbrev runAt2_A (c : Dev nD) (t : Fin cfg2.N) (h0 : t.val % 8 = 0) (h1 : ¬t.val % 8 = 7) :=
  kernelRun2_A (F := F) c (grid2.coords t) (ms2_0 t) (hs2_0 t) (ms2_1 t) (hs2_1 t) (ms2_2 t) (hs2_2 t) (ms2_3 t) (hs2_3 t) scM2_0 (Memref.isWhole_whole _) (cond2_0_of h0) (cond2_1_not h1)
abbrev runAt2_B (c : Dev nD) (t : Fin cfg2.N) (h0 : ¬t.val % 8 = 0) (h1 : ¬t.val % 8 = 7) :=
  kernelRun2_B (F := F) c (grid2.coords t) (ms2_0 t) (hs2_0 t) (ms2_1 t) (hs2_1 t) (ms2_2 t) (hs2_2 t) (ms2_3 t) (hs2_3 t) scM2_0 (Memref.isWhole_whole _) (cond2_0_not h0) (cond2_1_not h1)
abbrev runAt2_C (c : Dev nD) (t : Fin cfg2.N) (h0 : ¬t.val % 8 = 0) (h1 : t.val % 8 = 7) :=
  kernelRun2_C (F := F) c (grid2.coords t) (ms2_0 t) (hs2_0 t) (ms2_1 t) (hs2_1 t) (ms2_2 t) (hs2_2 t) (ms2_3 t) (hs2_3 t) scM2_0 (Memref.isWhole_whole _) (cond2_0_not h0) (cond2_1_of h1)

/-- What a list of stores leaves in the output tile, and in the accumulator. -/
def out2_of (L : List (View.Piece (Elt F) S1024x1024 EltTy.f32)) : Vec F S1024x1024 EltTy.f32 :=
  VO2_3.read (Elt F) (VO2_3.writes (Elt F) VO2_3.junk L)
def sout2_of (L : List (View.Piece (Elt F) S1024x1024 .f32)) : Vec F S1024x1024 .f32 :=
  VS2_0.read (Elt F) (VS2_0.writes (Elt F) VS2_0.junk L)

theorem scover2_A (c : Dev nD) (t : Fin cfg2.N) (h0 h1) (x0 x1 x2) (y : S1024x1024.Idx) :
    ∃ pc ∈ (runAt2_A (F := F) c t h0 h1 x0 x1 x2).2.1, y ∈ pc.1.set :=
  View.cover_of_tiledL _ S1024x1024.size (by sl_kernel_rfl) y
theorem scover2_B (c : Dev nD) (t : Fin cfg2.N) (h0 h1) (x0 x1 x2 xs) (y : S1024x1024.Idx) :
    ∃ pc ∈ (runAt2_B (F := F) c t h0 h1 x0 x1 x2 xs).2.1, y ∈ pc.1.set :=
  View.cover_of_tiledL _ S1024x1024.size (by sl_kernel_rfl) y
theorem scover2_C (c : Dev nD) (t : Fin cfg2.N) (h0 h1) (x0 x1 x2 xs) (y : S1024x1024.Idx) :
    ∃ pc ∈ (runAt2_C (F := F) c t h0 h1 x0 x1 x2 xs).2.1, y ∈ pc.1.set :=
  View.cover_of_tiledL _ S1024x1024.size (by sl_kernel_rfl) y
theorem cover2_C (c : Dev nD) (t : Fin cfg2.N) (h0 h1) (x0 x1 x2 xs) (y : S1024x1024.Idx) :
    ∃ pc ∈ (runAt2_C (F := F) c t h0 h1 x0 x1 x2 xs).1, y ∈ pc.1.set :=
  View.cover_of_tiledL _ S1024x1024.size (by sl_kernel_rfl) y

/-- What point `t` leaves in (the output tile, the accumulator), given what the point before left in the accumulator:
    at k = 0 the accumulator is cleared first, so `prev` is not read; only k = 7 stores the output tile. -/
def stepAt2 (c : Dev nD) (t : Fin cfg2.N) (prev : Vec F S1024x1024 .f32) : Vec F S1024x1024 EltTy.f32 × Vec F S1024x1024 .f32 :=
  if h0 : t.val % 8 = 0 then
    (out2_of [], sout2_of (runAt2_A c t h0 (by omega) (iblk2 V c 0 t) (iblk2 V c 1 t) (iblk2 V c 2 t)).2.1)
  else if h1 : t.val % 8 = 7 then
    (out2_of (runAt2_C c t h0 h1 (iblk2 V c 0 t) (iblk2 V c 1 t) (iblk2 V c 2 t) prev).1, sout2_of (runAt2_C c t h0 h1 (iblk2 V c 0 t) (iblk2 V c 1 t) (iblk2 V c 2 t) prev).2.1)
  else
    (out2_of [], sout2_of (runAt2_B c t h0 h1 (iblk2 V c 0 t) (iblk2 V c 1 t) (iblk2 V c 2 t) prev).2.1)

def outsAt2 (c : Dev nD) : (n : ℕ) → n < cfg2.N → Vec F S1024x1024 EltTy.f32 × Vec F S1024x1024 .f32
  | 0, hn => stepAt2 V c ⟨0, hn⟩ (sout2_of [])
  | n + 1, hn => stepAt2 V c ⟨n + 1, hn⟩ (outsAt2 c n (Nat.lt_of_succ_lt hn)).2

theorem outsAt2_A (c : Dev nD) (t : Fin cfg2.N) (h0 : t.val % 8 = 0) (h1 : ¬t.val % 8 = 7) :
    outsAt2 V c t.val t.isLt = (out2_of [], sout2_of (runAt2_A c t h0 h1 (iblk2 V c 0 t) (iblk2 V c 1 t) (iblk2 V c 2 t)).2.1) := by
  obtain ⟨n, hn⟩ := t
  cases n <;> (show stepAt2 V c _ _ = _; unfold stepAt2; exact dif_pos h0)

theorem outsAt2_B (c : Dev nD) (t : Fin cfg2.N) (h0 : ¬t.val % 8 = 0) (h1 : ¬t.val % 8 = 7) :
    outsAt2 V c t.val t.isLt = (out2_of [], sout2_of (runAt2_B c t h0 h1 (iblk2 V c 0 t) (iblk2 V c 1 t) (iblk2 V c 2 t) (outsAt2 V c (t.val - 1) (Nat.lt_of_le_of_lt (Nat.sub_le _ _) t.isLt)).2).2.1) := by
  obtain ⟨n, hn⟩ := t
  cases n with
  | zero => exact absurd (Nat.zero_mod _) h0
  | succ n => show stepAt2 V c ⟨n + 1, hn⟩ _ = _; unfold stepAt2; exact (dif_neg h0).trans (dif_neg h1)

theorem outsAt2_C (c : Dev nD) (t : Fin cfg2.N) (h0 : ¬t.val % 8 = 0) (h1 : t.val % 8 = 7) :
    outsAt2 V c t.val t.isLt = (out2_of (runAt2_C c t h0 h1 (iblk2 V c 0 t) (iblk2 V c 1 t) (iblk2 V c 2 t) (outsAt2 V c (t.val - 1) (Nat.lt_of_le_of_lt (Nat.sub_le _ _) t.isLt)).2).1, sout2_of (runAt2_C c t h0 h1 (iblk2 V c 0 t) (iblk2 V c 1 t) (iblk2 V c 2 t) (outsAt2 V c (t.val - 1) (Nat.lt_of_le_of_lt (Nat.sub_le _ _) t.isLt)).2).2.1) := by
  obtain ⟨n, hn⟩ := t
  cases n with
  | zero => exact absurd (Nat.zero_mod _) h0
  | succ n => show stepAt2 V c ⟨n + 1, hn⟩ _ = _; unfold stepAt2; exact (dif_neg h0).trans (dif_pos h1)

/-- The call's invariant before position `n`: from the second point on, the accumulator holds what the point before left. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS2_succ (c : Dev nD) (n : ℕ) (hn : n < cfg2.N) :
    PhiS2 V c (n + 1) hn = iprop(iprop(owns (c : Thread nD τ) scM2_0 fullShare ((outsAt2 V c n hn).2) ∗ others2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-- At any position the invariant holds the accumulator at some contents, which is all a point that clears it first needs. -/
theorem PhiS2_any (c : Dev nD) (n : ℕ) (h : n ≤ cfg2.N) :
    PhiS2 V c n h ⊢ iprop(iprop((∃ d, owns (c : Thread nD τ) scM2_0 fullShare d) ∗ others2 (F := F) c) ∗ (∃ r, prngReg c r)) := by
  cases n with
  | zero => rw [show PhiS2 V c 0 h = Pipeline.ΦA spec2 c from rfl, PhiA2_eq]
  | succ n =>
    rw [PhiS2_succ]
    iintro ⟨⟨HS0, Hr⟩, Hg⟩
    isplitl [HS0 Hr]
    · isplitl [HS0]
      · iexists _; iexact HS0
      iexact Hr
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = (outsAt2 V c t.val t.isLt).1 := rfl

theorem before2_0 (c : Dev nD) (t : Fin cfg2.N) (d) : (dat2 V c).before 0 t d = iblk2 V c 0 t :=
  before2_0_of V (dat2 V c) rfl (fun _ => rfl) t d
theorem before2_1 (c : Dev nD) (t : Fin cfg2.N) (d) : (dat2 V c).before 1 t d = iblk2 V c 1 t :=
  before2_1_of V (dat2 V c) rfl (fun _ => rfl) t d
theorem before2_2 (c : Dev nD) (t : Fin cfg2.N) (d) : (dat2 V c).before 2 t d = iblk2 V c 2 t :=
  before2_2_of V (dat2 V c) rfl (fun _ => rfl) t d

theorem leaves2_0 (c : Dev nD) (t : Fin cfg2.N) : (dat2 V c).leavesExact 0 t = owns (c : Thread nD τ) (ms2_0 t) fullShare (iblk2 V c 0 t) := by
  unfold Dat.leavesExact; rw [liveAt2_0 t]; rfl
theorem leaves2_1 (c : Dev nD) (t : Fin cfg2.N) : (dat2 V c).leavesExact 1 t = owns (c : Thread nD τ) (ms2_1 t) fullShare (iblk2 V c 1 t) := by
  unfold Dat.leavesExact; rw [liveAt2_1 t]; rfl
theorem leaves2_2 (c : Dev nD) (t : Fin cfg2.N) : (dat2 V c).leavesExact 2 t = owns (c : Thread nD τ) (ms2_2 t) fullShare (iblk2 V c 2 t) := by
  unfold Dat.leavesExact; rw [liveAt2_2 t]; rfl
theorem leaves2_3_idle (c : Dev nD) (t : Fin cfg2.N) (h1 : ¬t.val % 8 = 7) :
    (dat2 V c).leavesExact 3 t = iprop(∃ d, owns (c : Thread nD τ) (ms2_3 t) fullShare ((dat2 V c).before 3 t d)) :=
  Dat.leavesExact_idle (dat2 V c) 3 t (idleAt2_3 t (cond2_1_not h1)) (noFlush2_3 t (cond2_1_not h1))
theorem leaves2_3_live (c : Dev nD) (t : Fin cfg2.N) (h1 : t.val % 8 = 7) :
    (dat2 V c).leavesExact 3 t = owns (c : Thread nD τ) (ms2_3 t) fullShare (outsAt2 V c t.val t.isLt).1 := by
  unfold Dat.leavesExact; rw [liveAt2_3 t (cond2_1_of h1)]; rfl

/-- The body at any point: t mod 8 says which run applies; the invariant hands over the accumulator and takes it back at this point's contents. -/
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t)) := by
  unfold bodyAt2
  simp only [before2_0, before2_1, before2_2, leaves2_0, leaves2_1, leaves2_2]
  rw [show (dat2 V c).owesAt () t.succ = (dat2 V c).owesAt () t.castSucc from rfl,
    show (dat2 V c).Φ t.succ = PhiS2 V c (t.val + 1) t.isLt from rfl,
    PhiS2_succ,
    show (dat2 V c).Φ t.castSucc = PhiS2 V c t.val (Nat.le_of_lt t.isLt) from by dsimp only [dat2]; simp only [Fin.coe_castSucc]]
  have hN : t.val < 64 := lt_of_lt_of_eq t.isLt (show cfg2.N = 64 from N_2)
  by_cases h0 : t.val % 8 = 0
  · have h1 : ¬t.val % 8 = 7 := by omega
    rw [leaves2_3_idle V c t h1, outsAt2_A V c t h0 h1]
    dsimp only
    iintro ⟨HΦ, Ho, ⟨%d0, H0⟩, ⟨%d1, H1⟩, ⟨%d2, H2⟩, ⟨%d3, H3⟩⟩
    ihave HΦ' := (PhiS2_any V c _ _) $$ HΦ
    icases HΦ' with ⟨⟨HS0, Hr⟩, Hg⟩
    iapply ((runAt2_A c t h0 h1 (iblk2 V c 0 t) (iblk2 V c 1 t) (iblk2 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hr Hg]
    · isplitl [HS0 Hr]
      · isplitl [HS0]
        · unfold owns sout2_of; iexists _; isplitr
          swap; · iexact HS0
          ipureintro; exact View.read_writes_of_cover _ _ _ _ _ (scover2_A c t h0 h1 _ _ _)
        iexact Hr
      iexact Hg
    isplitl [Ho]; · iexact Ho
    isplitl [H0]; · iexact H0
    isplitl [H1]; · iexact H1
    isplitl [H2]; · iexact H2
    iexists _; iexact H3
  · have hz : t.val ≠ 0 := by omega
    rw [PhiS2_pos V c _ _ hz]
    by_cases h1 : t.val % 8 = 7
    · rw [leaves2_3_live V c t h1, outsAt2_C V c t h0 h1]
      dsimp only
      iintro ⟨⟨⟨HS0, Hr⟩, Hg⟩, Ho, ⟨%d0, H0⟩, ⟨%d1, H1⟩, ⟨%d2, H2⟩, ⟨%d3, H3⟩⟩
      iapply ((runAt2_C c t h0 h1 (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns sout2_of; iexists _; isplitr
            swap; · iexact HS0
            ipureintro; exact View.read_writes_of_cover _ _ _ _ _ (scover2_C c t h0 h1 _ _ _ _)
          iexact Hr
        iexact Hg
      isplitl [Ho]; · iexact Ho
      isplitl [H0]; · iexact H0
      isplitl [H1]; · iexact H1
      isplitl [H2]; · iexact H2
      unfold owns out2_of; iexists _; isplitr
      swap; · iexact H3
      ipureintro; exact View.read_writes_of_cover _ _ _ _ _ (cover2_C c t h0 h1 _ _ _ _)
    · rw [leaves2_3_idle V c t h1, outsAt2_B V c t h0 h1]
      dsimp only
      iintro ⟨⟨⟨HS0, Hr⟩, Hg⟩, Ho, ⟨%d0, H0⟩, ⟨%d1, H1⟩, ⟨%d2, H2⟩, ⟨%d3, H3⟩⟩
      iapply ((runAt2_B c t h0 h1 (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns sout2_of; iexists _; isplitr
            swap; · iexact HS0
            ipureintro; exact View.read_writes_of_cover _ _ _ _ _ (scover2_B c t h0 h1 _ _ _ _)
          iexact Hr
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

/-- After the last point the accumulator's named contents are forgotten. -/
theorem hout2 (c : Dev nD) : (dat2 V c).Φ (Fin.last cfg2.N) ⊢ Pipeline.ΦA spec2 c := by
  rw [PhiA2_eq]; exact PhiS2_any V c (Fin.last cfg2.N).val (Nat.le_of_lt_succ (Fin.last cfg2.N).isLt)

end Cert.KernelIdeal.Fr

end
-- ==== Proof.KI.Assembly.lean ====
import proofs.«427775_j1245540516174_2_alg».proof.Proof.Gen.KernelIdeal.Regions
import proofs.«427775_j1245540516174_2_alg».proof.Proof.KI.R0Frame
import proofs.«427775_j1245540516174_2_alg».proof.Proof.KI.R1Frame
import proofs.«427775_j1245540516174_2_alg».proof.Proof.KI.R2Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W1 : Dev nD → Valuation τ sig (Elt F) := fun c => V1 m c
abbrev X1 : (c : Dev nD) → (b : Ref sig .tc) → Buf (Elt F) ((c : Thread nD τ).loc b) := fun c b => W1 m c b

/-- After call 0: its arrays at what the call leaves, every other buffer as entered; likewise `W3`, `W4` after calls 1 and 2. -/
def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (X1 m) c).arrAt w cfg0.N = X2 m c (Pipeline.arrRef spec0 w) :=
  (W2_arr m c w).symm
theorem hrest0 (c : Dev nD) : ∀ b, b ∉ Finset.univ.image (Pipeline.arrRef spec0) → X2 m c b = X1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (X2 m) c).arrAt w cfg1.N
theorem W3_arr (c : Dev nD) (w : Fin cfg1.W) :
    W3 m c (Proc.devRef .tc (Pipeline.arrRef spec1 w)) = (dat1 (X2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev X3 : (c : Dev nD) → (b : Ref sig .tc) → Buf (Elt F) ((c : Thread nD τ).loc b) := fun c b => W3 m c b
theorem hF1 (c : Dev nD) (w : Fin cfg1.W) : (dat1 (X2 m) c).arrAt w cfg1.N = X3 m c (Pipeline.arrRef spec1 w) :=
  (W3_arr m c w).symm
theorem hrest1 (c : Dev nD) : ∀ b, b ∉ Finset.univ.image (Pipeline.arrRef spec1) → X3 m c b = X2 m c b :=
  fun b hb => W3_of_ne m c b fun w e => hb (Finset.mem_image.mpr ⟨w, Finset.mem_univ _, e⟩)

def W4 (c : Dev nD) : Valuation τ sig (Elt F) :=
  Pipeline.withArrays spec2 c (W3 m c) fun w => (dat2 (X3 m) c).arrAt w cfg2.N
theorem W4_arr (c : Dev nD) (w : Fin cfg2.W) :
    W4 m c (Proc.devRef .tc (Pipeline.arrRef spec2 w)) = (dat2 (X3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev X4 : (c : Dev nD) → (b : Ref sig .tc) → Buf (Elt F) ((c : Thread nD τ).loc b) := fun c b => W4 m c b
theorem hF2 (c : Dev nD) (w : Fin cfg2.W) : (dat2 (X3 m) c).arrAt w cfg2.N = X4 m c (Pipeline.arrRef spec2 w) :=
  (W4_arr m c w).symm
theorem hrest2 (c : Dev nD) : ∀ b, b ∉ Finset.univ.image (Pipeline.arrRef spec2) → X4 m c b = X3 m c b :=
  fun b hb => W4_of_ne m c b fun w e => hb (Finset.mem_image.mpr ⟨w, Finset.mem_univ _, e⟩)

/-- No item writes an argument. -/
theorem W4_main_arg0 (c : Dev nD) : W4 m c (Proc.devRef .tc main_arg0) = m ((c : Thread nD τ).loc main_arg0) :=
  (W4_of_ne m c main_arg0 (by decide)).trans <| (W3_of_ne m c main_arg0 (by decide)).trans <| (W2_of_ne m c main_arg0 (by decide)).trans <| (V1_of m c main_arg0 (by decide)).trans rfl
theorem W4_main_arg1 (c : Dev nD) : W4 m c (Proc.devRef .tc main_arg1) = m ((c : Thread nD τ).loc main_arg1) :=
  (W4_of_ne m c main_arg1 (by decide)).trans <| (W3_of_ne m c main_arg1 (by decide)).trans <| (W2_of_ne m c main_arg1 (by decide)).trans <| (V1_of m c main_arg1 (by decide)).trans rfl
theorem W4_main_arg2 (c : Dev nD) : W4 m c (Proc.devRef .tc main_arg2) = m ((c : Thread nD τ).loc main_arg2) :=
  (W4_of_ne m c main_arg2 (by decide)).trans <| (W3_of_ne m c main_arg2 (by decide)).trans <| (W2_of_ne m c main_arg2 (by decide)).trans <| (V1_of m c main_arg2 (by decide)).trans rfl
theorem W4_main_arg3 (c : Dev nD) : W4 m c (Proc.devRef .tc main_arg3) = m ((c : Thread nD τ).loc main_arg3) :=
  (W4_of_ne m c main_arg3 (by decide)).trans <| (W3_of_ne m c main_arg3 (by decide)).trans <| (W2_of_ne m c main_arg3 (by decide)).trans <| (V1_of m c main_arg3 (by decide)).trans rfl
theorem W4_main_arg4 (c : Dev nD) : W4 m c (Proc.devRef .tc main_arg4) = m ((c : Thread nD τ).loc main_arg4) :=
  (W4_of_ne m c main_arg4 (by decide)).trans <| (W3_of_ne m c main_arg4 (by decide)).trans <| (W2_of_ne m c main_arg4 (by decide)).trans <| (V1_of m c main_arg4 (by decide)).trans rfl

def pdats : (p : Fin 3) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X2 m) c
  | ⟨2, _⟩ => fun c => dat2 (X3 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin0 (X1 m) c)
    show (_ : sProp 𝕄) ⊢ _
    unfold Pipeline.ΦA
    iintro ⟨Hp, -, Hr⟩
    isplitl [Hr]; · iexact Hr
    iexact Hp
  hout c := by
    refine Idealize.SL.BI.Entails.trans (hout0 (X1 m) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (X2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin1 (X2 m) c)
    show (_ : sProp 𝕄) ⊢ _
    unfold Pipeline.ΦA
    iintro ⟨Hp, -, Hr⟩
    isplitl [Hr]; · iexact Hr
    iexact Hp
  hout c := by
    refine Idealize.SL.BI.Entails.trans (hout1 (X2 m) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X2 m c) (X3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (X3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin2 (X3 m) c)
    show (_ : sProp 𝕄) ⊢ _
    unfold Pipeline.ΦA
    iintro ⟨Hp, -, Hr⟩
    isplitl [Hr]; · iexact Hr
    iexact Hp
  hout c := by
    refine Idealize.SL.BI.Entails.trans (hout2 (X3 m) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (X3 m c) (X4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (V0 m)),
    .region (reg0 m),
    .region (reg1 m),
    .region (reg2 m) ]
theorem main_run (c : Dev nD) : main (F := F) c = Pipeline.Seg.run (segs m) := (main_chain c).trans (by chain_rfl)

abbrev result (c : Dev nD) : Buf (Elt F) ((c : Thread nD τ).loc main_v17) := W4 m c (Proc.devRef .tc main_v17)

set_option backward.isDefEq.respectTransparency.types false in

/-- From any memory every weakly fair execution terminates, nothing faulting; the result buffer ends at what the third call leaves, every argument as launched. -/
theorem run_all : θ_run defs (onTc (τ := τ) (main (F := F))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v17 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.KernelIdeal.Fr

end
-- ==== Proof.KI.R0Cover.lean ====
import proofs.«427775_j1245540516174_2_alg».proof.Proof.KI.R0Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output window's block at point t: row block 0, column block t / 8. -/
theorem idx_facts0_3 : ∀ t : Fin cfg0.N, win0_3.index t (0 : Fin 2) = 0 ∧ win0_3.index t (1 : Fin 2) = t.val / 8 :=
  (by decide +kernel : ∀ t : Fin grid0.N, win0_3.index t (0 : Fin 2) = 0 ∧ win0_3.index t (1 : Fin 2) = t.val / 8)

theorem mem_blk0_3 (t : Fin cfg0.N) (i : S1024x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole (Pipeline.arrRef spec0 3)).slice (win0_3.rect t)).set ↔ _
  rw [View.set_slice_whole, Rect.mem_set_unit]
  exact Iff.rfl

/-- Column tile n is the block of point 8 · n + 7, so an index's column names a point whose block holds it. -/
theorem val0_cover (i : S1024x8192.Idx) :
    ∃ t : Fin cfg0.N, (cfg0.win 3).flush t = true ∧ i ∈ ((cfg0.win 3).blk t).view.set := by
  have hi0 : (i 0).val < 1024 := (i 0).isLt
  have hi1 : (i 1).val < 8192 := (i 1).isLt
  have hN : cfg0.N = 64 := N_0
  have hlt : 8 * ((i 1).val / 1024) + 7 < cfg0.N := by rw [hN]; omega
  obtain ⟨e0, e1⟩ := idx_facts0_3 ⟨8 * ((i 1).val / 1024) + 7, hlt⟩
  refine ⟨⟨8 * ((i 1).val / 1024) + 7, hlt⟩, (flush0_3 _).mpr (by show (8 * ((i 1).val / 1024) + 7) % 8 = 7; omega), ?_⟩
  rw [mem_blk0_3]
  intro a
  match a with
  | ⟨0, _⟩ =>
    show win0_3.index ⟨8 * ((i 1).val / 1024) + 7, hlt⟩ (0 : Fin 2) * 1024 ≤ (i 0).val ∧ (i 0).val < win0_3.index ⟨8 * ((i 1).val / 1024) + 7, hlt⟩ (0 : Fin 2) * 1024 + 1024
    rw [e0]; omega
  | ⟨1, _⟩ =>
    show win0_3.index ⟨8 * ((i 1).val / 1024) + 7, hlt⟩ (1 : Fin 2) * 1024 ≤ (i 1).val ∧ (i 1).val < win0_3.index ⟨8 * ((i 1).val / 1024) + 7, hlt⟩ (1 : Fin 2) * 1024 + 1024
    rw [e1]; show (8 * ((i 1).val / 1024) + 7) / 8 * 1024 ≤ (i 1).val ∧ (i 1).val < (8 * ((i 1).val / 1024) + 7) / 8 * 1024 + 1024; omega

end Cert.KernelIdeal.Fr

end
-- ==== Proof.Spec.lean ====
import Idealize.ShloMosaic.PureOps.Ideal
import Idealize.ShloMosaic.Lib.ValueIdx

noncomputable section

namespace Cert.Spec

open Idealize.ShloMosaic Idealize.ShloMosaic.ValueIdx

def IsReal (e : EReal) : Prop := ∃ r : ℝ, e = (r : EReal)

/-- The dense matrix of a coordinate list: entry (r, c) is the sum of the values listed at (r, c). -/
def W (rows cols : Fin 131072 → Fin 8192) (vals : Fin 131072 → EReal) (r c : Fin 8192) : EReal :=
  ∑ u ∈ Finset.univ.filter (fun u => rows u = r ∧ cols u = c), vals u

/-- One dense step: multiply by the matrix, add the bias, clip below at zero. -/
def stepDense (w : Fin 8192 → Fin 8192 → EReal) (bias : Fin 8192 → EReal) (x : Fin 1024 → Fin 8192 → EReal)
    (b : Fin 1024) (n : Fin 8192) : EReal :=
  max ((∑ j : Fin 8192, x b j * w j n) + bias n) 0

/-- One sparse step: for output column n, sum over the list's entries with that column the input at the entry's row times its value. -/
def stepSparse (rows cols : Fin 131072 → Fin 8192) (vals : Fin 131072 → EReal) (bias : Fin 8192 → EReal)
    (x : Fin 1024 → Fin 8192 → EReal) (b : Fin 1024) (n : Fin 8192) : EReal :=
  max ((∑ u ∈ Finset.univ.filter (fun u => cols u = n), x b (rows u) * vals u) + bias n) 0

def dense3 (w : Fin 8192 → Fin 8192 → EReal) (bias : Fin 8192 → EReal) (x : Fin 1024 → Fin 8192 → EReal) :
    Fin 1024 → Fin 8192 → EReal :=
  stepDense w bias (stepDense w bias (stepDense w bias x))

def sparse3 (rows cols : Fin 131072 → Fin 8192) (vals : Fin 131072 → EReal) (bias : Fin 8192 → EReal)
    (x : Fin 1024 → Fin 8192 → EReal) : Fin 1024 → Fin 8192 → EReal :=
  stepSparse rows cols vals bias (stepSparse rows cols vals bias (stepSparse rows cols vals bias x))

/-- An index word read as a position below 8192; for a word in range this is the word's own value (`idxOf_val`). -/
def idxOf (v : IVec (⟨1, ![131072]⟩ : Shape) 32) (u : Fin 131072) : Fin 8192 :=
  Fin.ofNat 8192 (v (ix1 u)).toNat

def InRange (v : IVec (⟨1, ![131072]⟩ : Shape) 32) : Prop :=
  ∀ u : Fin 131072, 0 ≤ (v (ix1 u)).toInt ∧ (v (ix1 u)).toInt < 8192

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a c : ℝ) : ((max a c : ℝ) : EReal) = max (a : EReal) (c : EReal) := by
  rcases le_total a c with h | h
  · rw [max_eq_right h, max_eq_right (EReal.coe_le_coe_iff.2 h)]
  · rw [max_eq_left h, max_eq_left (EReal.coe_le_coe_iff.2 h)]

theorem isReal_coe (r : ℝ) : IsReal (r : EReal) := ⟨r, rfl⟩

theorem isReal_zero : IsReal 0 := ⟨0, rfl⟩

theorem IsReal.add {a c : EReal} (ha : IsReal a) (hc : IsReal c) : IsReal (a + c) := by
  obtain ⟨r, rfl⟩ := ha
  obtain ⟨t, rfl⟩ := hc
  exact ⟨r + t, (EReal.coe_add r t).symm⟩

theorem IsReal.mul {a c : EReal} (ha : IsReal a) (hc : IsReal c) : IsReal (a * c) := by
  obtain ⟨r, rfl⟩ := ha
  obtain ⟨t, rfl⟩ := hc
  exact ⟨r * t, (EReal.coe_mul r t).symm⟩

theorem IsReal.max {a c : EReal} (ha : IsReal a) (hc : IsReal c) : IsReal (max a c) := by
  obtain ⟨r, rfl⟩ := ha
  obtain ⟨t, rfl⟩ := hc
  exact ⟨Max.max r t, (coe_max r t).symm⟩

theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A column of the list's matrix against x, regrouped by list entry: a finite double sum taken in the other order. -/
theorem real_regroup {ι κ : Type*} [Fintype ι] [Fintype κ] [DecidableEq κ] (rows cols : ι → κ) (x : κ → ℝ)
    (v : ι → ℝ) (n : κ) :
    ∑ j, x j * ∑ u ∈ Finset.univ.filter (fun u => rows u = j ∧ cols u = n), v u
      = ∑ u ∈ Finset.univ.filter (fun u => cols u = n), x (rows u) * v u := by
  rw [← Finset.sum_fiberwise_of_maps_to (s := Finset.univ.filter (fun u => cols u = n)) (t := Finset.univ)
    (g := rows) (fun _ _ => Finset.mem_univ _)]
  refine Finset.sum_congr rfl fun j _ => ?_
  rw [Finset.mul_sum, Finset.filter_filter]
  refine Finset.sum_congr ?_ ?_
  · ext u
    simp only [Finset.mem_filter, Finset.mem_univ, true_and]
    exact and_comm
  · intro u hu
    rw [(Finset.mem_filter.1 hu).2.2]

theorem ereal_regroup {ι κ : Type*} [Fintype ι] [Fintype κ] [DecidableEq κ] (rows cols : ι → κ) (x : κ → ℝ)
    (v : ι → ℝ) (n : κ) :
    ∑ j, (x j : EReal) * ∑ u ∈ Finset.univ.filter (fun u => rows u = j ∧ cols u = n), (v u : EReal)
      = ∑ u ∈ Finset.univ.filter (fun u => cols u = n), (x (rows u) : EReal) * (v u : EReal) := by
  simp only [← coe_sum, ← EReal.coe_mul]
  rw [real_regroup]

theorem idxOf_val {v : IVec (⟨1, ![131072]⟩ : Shape) 32} (h : InRange v) (u : Fin 131072) :
    ((idxOf v u).val : Int) = (v (ix1 u)).toInt := by
  obtain ⟨h0, h1⟩ := h u
  unfold idxOf
  rw [Fin.val_ofNat]
  have hlt := (v (ix1 u)).isLt
  have hc := BitVec.toInt_eq_toNat_cond (v (ix1 u))
  split at hc <;> omega

/-- On real entries a dense step through the list's matrix is a sparse step through the list; moving x across the inner sum is where finiteness is used. -/
theorem stepDense_W_eq_stepSparse (rows cols : Fin 131072 → Fin 8192) (vals : Fin 131072 → EReal)
    (bias : Fin 8192 → EReal) (x : Fin 1024 → Fin 8192 → EReal)
    (hx : ∀ b j, IsReal (x b j)) (hv : ∀ u, IsReal (vals u)) :
    stepDense (W rows cols vals) bias x = stepSparse rows cols vals bias x := by
  funext b n
  choose xr hxr using hx
  choose vr hvr using hv
  obtain rfl : x = fun b j => (xr b j : EReal) := funext fun b => funext fun j => hxr b j
  obtain rfl : vals = fun u => (vr u : EReal) := funext hvr
  unfold stepDense stepSparse W
  rw [ereal_regroup rows cols (xr b) vr n]

theorem stepSparse_isReal (rows cols : Fin 131072 → Fin 8192) (vals : Fin 131072 → EReal)
    (bias : Fin 8192 → EReal) (x : Fin 1024 → Fin 8192 → EReal)
    (hx : ∀ b j, IsReal (x b j)) (hv : ∀ u, IsReal (vals u)) (hb : ∀ n, IsReal (bias n)) (b : Fin 1024) (n : Fin 8192) :
    IsReal (stepSparse rows cols vals bias x b n) := by
  unfold stepSparse
  refine IsReal.max (IsReal.add (IsReal.sum _ _ fun u _ => (hx b (rows u)).mul (hv u)) (hb n)) isReal_zero

/-- A sparse step of real inputs is real again, so the one-step law applies three times in a row. -/
theorem dense3_eq_sparse3 (rows cols : Fin 131072 → Fin 8192) (vals : Fin 131072 → EReal)
    (bias : Fin 8192 → EReal) (x : Fin 1024 → Fin 8192 → EReal)
    (hx : ∀ b j, IsReal (x b j)) (hv : ∀ u, IsReal (vals u)) (hb : ∀ n, IsReal (bias n)) :
    dense3 (W rows cols vals) bias x = sparse3 rows cols vals bias x := by
  unfold dense3 sparse3
  have r1 := stepSparse_isReal rows cols vals bias x hx hv hb
  have r2 := stepSparse_isReal rows cols vals bias _ r1 hv hb
  rw [stepDense_W_eq_stepSparse rows cols vals bias x hx hv,
    stepDense_W_eq_stepSparse rows cols vals bias _ r1 hv,
    stepDense_W_eq_stepSparse rows cols vals bias _ r2 hv]

end Cert.Spec

end
-- ==== Proof.BlockSum.lean ====
import proofs.«427775_j1245540516174_2_alg».proof.Proof.Spec
import Mathlib.Algebra.BigOperators.Fin
import Mathlib.Logic.Equiv.Fin.Basic

noncomputable section

namespace Cert.BlockSum

/-- Position j of tile k on the axis of extent 8192. -/
def pos (k : ℕ) (j : Fin 1024) : Fin 8192 := ⟨(1024 * k + j.val) % 8192, Nat.mod_lt _ (by decide)⟩

theorem pos_val (k : ℕ) (hk : k < 8) (j : Fin 1024) : (pos k j).val = 1024 * k + j.val := by
  have := j.isLt
  show (1024 * k + j.val) % 8192 = _
  omega

/-- The axis is eight tiles of 1024: (k, j) ↦ 1024 · k + j is a bijection onto it, and a finite sum may be regrouped along it. -/
theorem sum_tiles {M : Type*} [AddCommMonoid M] (f : Fin 8192 → M) :
    ∑ k ∈ Finset.range 8, ∑ j : Fin 1024, f (pos k j) = ∑ j' : Fin 8192, f j' := by
  rw [Finset.sum_range (fun k => ∑ j : Fin 1024, f (pos k j)),
    ← Fintype.sum_prod_type (f := fun p : Fin 8 × Fin 1024 => f (pos p.1.val p.2))]
  refine Fintype.sum_equiv (finProdFinEquiv : Fin 8 × Fin 1024 ≃ Fin 8192) _ _ fun p => congrArg f (Fin.ext ?_)
  rw [pos_val p.1.val p.1.isLt p.2]
  show _ = p.2.val + 1024 * p.1.val
  omega

def tile (w : Fin 8192 → Fin 8192 → EReal) (x : Fin 1024 → Fin 8192 → EReal) (n k : ℕ) (b q : Fin 1024) : EReal :=
  ∑ j : Fin 1024, x b (pos k j) * w (pos k j) (pos n q)

/-- The products of the tiles k' ≤ k that go to row b, column q of column tile n. -/
def acc (w : Fin 8192 → Fin 8192 → EReal) (x : Fin 1024 → Fin 8192 → EReal) (n k : ℕ) (b q : Fin 1024) : EReal :=
  ∑ k' ∈ Finset.range (k + 1), tile w x n k' b q

theorem acc_first (w : Fin 8192 → Fin 8192 → EReal) (x : Fin 1024 → Fin 8192 → EReal) (n : ℕ) (b q : Fin 1024) :
    acc w x n 0 b q = 0 + tile w x n 0 b q := by
  unfold acc
  rw [Finset.sum_range_one, zero_add]

theorem acc_step (w : Fin 8192 → Fin 8192 → EReal) (x : Fin 1024 → Fin 8192 → EReal) (n k : ℕ) (hk : k ≠ 0) (b q : Fin 1024) :
    acc w x n k b q = acc w x n (k - 1) b q + tile w x n k b q := by
  obtain ⟨k, rfl⟩ := Nat.exists_eq_succ_of_ne_zero hk
  unfold acc
  rw [Finset.sum_range_succ]
  rfl

/-- All eight tiles, plus the bias, clipped at zero: one dense step at column 1024 · n + q. -/
theorem finish (w : Fin 8192 → Fin 8192 → EReal) (bias : Fin 8192 → EReal) (x : Fin 1024 → Fin 8192 → EReal)
    (n : ℕ) (b q : Fin 1024) :
    max (acc w x n 7 b q + bias (pos n q)) 0 = Cert.Spec.stepDense w bias x b (pos n q) := by
  unfold acc tile Cert.Spec.stepDense
  rw [sum_tiles (fun j' => x b j' * w j' (pos n q))]

end Cert.BlockSum

end
-- ==== Proof.KI.R0Value.lean ====
import proofs.«427775_j1245540516174_2_alg».proof.Proof.KI.R0Frame
import proofs.«427775_j1245540516174_2_alg».proof.Proof.KI.R0Cover
import proofs.«427775_j1245540516174_2_alg».proof.Proof.Spec
import proofs.«427775_j1245540516174_2_alg».proof.Proof.BlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

section AnyValues

variable {F : FTy → Type} [FloatOps F]

theorem val0_hz : (![0, 0] : Fin 2 → Nat) = fun _ => 0 := funext fun a => by fin_cases a <;> rfl

/-- The slice of the input a point's product reads: all rows, the 1024 columns from 1024 · k on. -/
abbrev val0_xslice (i : grid0.Coords) (x0 : Vec F S1024x8192 .bf16) : Vec F S1024x1024 .bf16 :=
  View.ld x0 (Rect.unit (s := S1024x8192) (k0_off1 i) S1024x1024.size (k0_off1_inb i))

section Runs
variable (c : Dev nD) (t : Fin cfg0.N) (x0 : Vec F S1024x8192 .bf16) (x1 : Vec F S1024x1024 .bf16) (x2 : Vec F S1x1024 .f32) (xs : Vec F S1024x1024 .f32)

/-- k = 0: the accumulator is cleared and read back, so it is left at the zero tile plus the point's product. -/
theorem val0_sout_A (h0 h1) :
    sout0_of (runAt0_A (F := F) c t h0 h1 x0 x1 x2).2.1 = k0_pay2 (val0_xslice (grid0.coords t) x0) (k0_pay1 (F := F)) x1 := by
  unfold sout0_of
  rw [View.read_writes_eq_canon _ _ _ (scover0_A c t h0 h1 x0 x1 x2)]
  unfold runAt0_A kernelRun0_A
  dsimp only
  sl_unfold_words
  rw [View.canon_cons_unit_zero (S := S1024x1024) val0_hz, View.readCov_unit_zero (S := S1024x1024) _ val0_hz]
  simp only [View.readAt_eq_ld, (hs0_0 t).read_unread, (hs0_1 t).read_unread, View.ld_unit_zero (S := S1024x1024) val0_hz]
  rfl

/-- 0 < k < 7: what the point before left, plus the point's product. -/
theorem val0_sout_B (h0 h1) :
    sout0_of (runAt0_B (F := F) c t h0 h1 x0 x1 x2 xs).2.1 = k0_pay2 (val0_xslice (grid0.coords t) x0) xs x1 := by
  unfold sout0_of
  rw [View.read_writes_eq_canon _ _ _ (scover0_B c t h0 h1 x0 x1 x2 xs)]
  unfold runAt0_B kernelRun0_B
  dsimp only
  sl_unfold_words
  rw [View.canon_unit_zero val0_hz]
  simp only [View.readAt_eq_ld, (hs0_0 t).read_unread, (hs0_1 t).read_unread, (Memref.isWhole_whole cc0_scratch0).read_unread, View.ld_unit_zero (S := S1024x1024) val0_hz]
  rfl

/-- k = 7: the accumulator as for 0 < k < 7; the output tile is the bias row added to it, clipped below at zero. -/
theorem val0_sout_C (h0 h1) :
    sout0_of (runAt0_C (F := F) c t h0 h1 x0 x1 x2 xs).2.1 = k0_pay2 (val0_xslice (grid0.coords t) x0) xs x1 := by
  unfold sout0_of
  rw [View.read_writes_eq_canon _ _ _ (scover0_C c t h0 h1 x0 x1 x2 xs)]
  unfold runAt0_C kernelRun0_C
  dsimp only
  sl_unfold_words
  rw [View.canon_unit_zero val0_hz]
  simp only [View.readAt_eq_ld, (hs0_0 t).read_unread, (hs0_1 t).read_unread, (Memref.isWhole_whole cc0_scratch0).read_unread, View.ld_unit_zero (S := S1024x1024) val0_hz]
  rfl

theorem val0_out_C (h0 h1) :
    out0_of (runAt0_C (F := F) c t h0 h1 x0 x1 x2 xs).1 = k0_pay3 (k0_pay2 (val0_xslice (grid0.coords t) x0) xs x1) x2 := by
  unfold out0_of
  rw [View.read_writes_eq_canon _ _ _ (cover0_C c t h0 h1 x0 x1 x2 xs)]
  unfold runAt0_C kernelRun0_C
  dsimp only
  sl_unfold_words
  rw [View.canon_unit_zero val0_hz, View.readCov_unit_zero (S := S1024x1024) _ val0_hz]
  simp only [View.readAt_eq_ld, (hs0_0 t).read_unread, (hs0_1 t).read_unread, (hs0_2 t).read_unread, (Memref.isWhole_whole cc0_scratch0).read_unread, View.ld_unit_zero (S := S1024x1024) val0_hz, View.ld_unit_zero (S := S1x1024) val0_hz]
  rfl

end Runs

theorem val0_xslice_apply (i : grid0.Coords) (x0 : Vec F S1024x8192 .bf16) (b j : Fin 1024) (j' : Fin 8192)
    (hj : j'.val = 1024 * (i 1).val + j.val) : val0_xslice i x0 (ix2 b j) = x0 (ix2 b j') := by
  show x0 ((Rect.unit (s := S1024x8192) (k0_off1 i) S1024x1024.size (k0_off1_inb i)).idx (ix2 b j)) = _
  refine congrArg x0 (funext fun a => Fin.ext ?_)
  match a with
  | ⟨0, _⟩ => show k0_off1 i 0 + 1 * b.val = b.val; rw [k0_off1_eq]; show 0 + 1 * b.val = b.val; omega
  | ⟨1, _⟩ => show k0_off1 i 1 + 1 * j.val = j'.val; rw [k0_off1_eq, hj]; show 1024 * (i 1).val + 1 * j.val = _; omega

theorem val0_pay1_apply (b q : Fin 1024) : (k0_pay1 (F := Ideal)) (ix2 b q) = 0 := by
  unfold k0_pay1
  show shapeCast S1024x1024 (broadcast S1024x1024 (Ideal.ofBits .f32 0x00000000#32)) shapeCasts_S1024x1024_S1024x1024 (ix2 b q) = 0
  rw [shapeCast_self]
  exact Ideal.ofBits_zero_f32

/-- The block product at (b, q): the sum over the contracted position of the products of the entries. -/
theorem val0_matmul_apply (A B : FVec Ideal S1024x1024 .bf16) (b q : Fin 1024) :
    matmul dot_S1024x1024_S1024x1024_S1024x1024_1_0_0_1_n_n none A B (constant (F := Ideal) S1024x1024 .f32 0x00000000#32) (ix2 b q)
      = ∑ j : Fin 1024, A (ix2 b j) * B (ix2 j q) := by
  show FloatOps.matmul _ none A B _ (ix2 b q) = _
  rw [Ideal.matmul_constant_zero_apply,
    ← Equiv.sum_comp (contrEquiv1 dot_S1024x1024_S1024x1024_S1024x1024_1_0_0_1_n_n 1024 rfl rfl).symm]
  refine Finset.sum_congr rfl fun j _ => ?_
  have c2 := contrEquiv1_symm_val dot_S1024x1024_S1024x1024_S1024x1024_1_0_0_1_n_n 1024 rfl rfl j
  have l2 : dot_S1024x1024_S1024x1024_S1024x1024_1_0_0_1_n_n.lhsIdx (ix2 b q) ((contrEquiv1 _ 1024 rfl rfl).symm j) = ix2 b j := by
    funext ax; apply Fin.ext
    match ax with
    | ⟨0, _⟩ => simp [DotDims.lhsIdx, dot_S1024x1024_S1024x1024_S1024x1024_1_0_0_1_n_n]; rfl
    | ⟨1, _⟩ => simp [DotDims.lhsIdx, dot_S1024x1024_S1024x1024_S1024x1024_1_0_0_1_n_n]; exact c2
  have r2 : dot_S1024x1024_S1024x1024_S1024x1024_1_0_0_1_n_n.rhsIdx (ix2 b q) ((contrEquiv1 _ 1024 rfl rfl).symm j) = ix2 j q := by
    funext ax; apply Fin.ext
    match ax with
    | ⟨0, _⟩ => simp [DotDims.rhsIdx, dot_S1024x1024_S1024x1024_S1024x1024_1_0_0_1_n_n]; exact c2
    | ⟨1, _⟩ => simp [DotDims.rhsIdx, dot_S1024x1024_S1024x1024_S1024x1024_1_0_0_1_n_n]; rfl
  rw [l2, r2]

theorem val0_pay2_apply (v6 : Vec Ideal S1024x1024 .bf16) (v8 : Vec Ideal S1024x1024 .f32) (v9 : Vec Ideal S1024x1024 .bf16) (b q : Fin 1024) :
    k0_pay2 v6 v8 v9 (ix2 b q) = v8 (ix2 b q) + ∑ j : Fin 1024, v6 (ix2 b j) * v9 (ix2 j q) := by
  unfold k0_pay2
  show shapeCast S1024x1024 (addf v8 (matmul dot_S1024x1024_S1024x1024_S1024x1024_1_0_0_1_n_n none
      (shapeCast S1024x1024 v6 shapeCasts_S1024x1024_S1024x1024) (shapeCast S1024x1024 v9 shapeCasts_S1024x1024_S1024x1024)
      (constant (F := Ideal) S1024x1024 .f32 0x00000000#32))) shapeCasts_S1024x1024_S1024x1024 (ix2 b q) = _
  rw [shapeCast_self, shapeCast_self, shapeCast_self]
  show v8 (ix2 b q) + matmul dot_S1024x1024_S1024x1024_S1024x1024_1_0_0_1_n_n none v6 v9 (constant (F := Ideal) S1024x1024 .f32 0x00000000#32) (ix2 b q) = _
  rw [val0_matmul_apply]

theorem val0_pay3_apply (v19 : Vec Ideal S1024x1024 .f32) (v20 : Vec Ideal S1x1024 .f32) (b q : Fin 1024) :
    k0_pay3 v19 v20 (ix2 b q) = max (v19 (ix2 b q) + v20 (ix2 (0 : Fin 1) q)) 0 := by
  unfold k0_pay3
  show max (v19 (ix2 b q) + broadcastTo S1024x1024 (shapeCast S1x1024 v20 shapeCasts_S1x1024_S1x1024) broadcasts_S1x1024_S1024x1024 (ix2 b q))
      (Ideal.ofBits .f32 0x00000000#32) = _
  rw [shapeCast_self, broadcastTo_1b_ab_apply, Ideal.ofBits_zero_f32]

variable (V : (c : Dev nD) → (b : Ref sig .tc) → Buf (Elt F) ((c : Thread nD τ).loc b))

/-- At point t = 8 · n + k: the input is one block, the weight's block is (k, n), the bias row's is (0, n). -/
theorem val0_idx : ∀ t : Fin cfg0.N,
    win0_0.index t (0 : Fin 2) = 0 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8
    ∧ ((grid0.coords t) 1).val = t.val % 8 :=
  (by decide +kernel : ∀ t : Fin grid0.N, _)

theorem val0_xblk_apply (c : Dev nD) (t : Fin cfg0.N) (b : Fin 1024) (j' : Fin 8192) :
    (iblk0 V c 0 t : Vec F S1024x8192 .bf16) (ix2 b j')
      = (V c (Pipeline.arrRef spec0 0) : S1024x8192.Idx → Elt F .bf16) (ix2 b j') := by
  obtain ⟨e0, e1, -⟩ := val0_idx t
  unfold iblk0
  rw [View.read_apply]
  show (V c (Pipeline.arrRef spec0 0) : S1024x8192.Idx → Elt F .bf16) _ = _
  refine congrArg _ (funext fun a => Fin.ext ?_)
  match a with
  | ⟨0, _⟩ => show win0_0.index t (0 : Fin 2) * 1024 + 1 * b.val = b.val; rw [e0]; omega
  | ⟨1, _⟩ => show win0_0.index t (1 : Fin 2) * 8192 + 1 * j'.val = j'.val; rw [e1]; omega

theorem val0_wblk_apply (c : Dev nD) (t : Fin cfg0.N) (j q : Fin 1024) (r s : Fin 8192)
    (hr : r.val = 1024 * (t.val % 8) + j.val) (hs : s.val = 1024 * (t.val / 8) + q.val) :
    (iblk0 V c 1 t : Vec F S1024x1024 .bf16) (ix2 j q)
      = (V c (Pipeline.arrRef spec0 1) : S8192x8192.Idx → Elt F .bf16) (ix2 r s) := by
  obtain ⟨-, -, e0, e1, -⟩ := val0_idx t
  unfold iblk0
  rw [View.read_apply]
  show (V c (Pipeline.arrRef spec0 1) : S8192x8192.Idx → Elt F .bf16) _ = _
  refine congrArg _ (funext fun a => Fin.ext ?_)
  match a with
  | ⟨0, _⟩ => show win0_1.index t (0 : Fin 2) * 1024 + 1 * j.val = r.val; rw [e0, hr]; omega
  | ⟨1, _⟩ => show win0_1.index t (1 : Fin 2) * 1024 + 1 * q.val = s.val; rw [e1, hs]; omega

theorem val0_bblk_apply (c : Dev nD) (t : Fin cfg0.N) (q : Fin 1024) (s : Fin 8192)
    (hs : s.val = 1024 * (t.val / 8) + q.val) :
    (iblk0 V c 2 t : Vec F S1x1024 .f32) (ix2 (0 : Fin 1) q)
      = (V c (Pipeline.arrRef spec0 2) : S1x8192.Idx → Elt F .f32) (ix2 (0 : Fin 1) s) := by
  obtain ⟨-, -, -, -, e0, e1, -⟩ := val0_idx t
  unfold iblk0
  rw [View.read_apply]
  show (V c (Pipeline.arrRef spec0 2) : S1x8192.Idx → Elt F .f32) _ = _
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = s.val; rw [e1, hs]; omega

end AnyValues

section AtIdeal

variable (V : (c : Dev nD) → (b : Ref sig .tc) → Buf (Elt Ideal) ((c : Thread nD τ).loc b))

abbrev val0_X (c : Dev nD) : Fin 1024 → Fin 8192 → EReal :=
  fun p j => (V c (Pipeline.arrRef spec0 0) : S1024x8192.Idx → EReal) (ix2 p j)
abbrev val0_W (c : Dev nD) : Fin 8192 → Fin 8192 → EReal :=
  fun j k => (V c (Pipeline.arrRef spec0 1) : S8192x8192.Idx → EReal) (ix2 j k)
abbrev val0_B (c : Dev nD) : Fin 8192 → EReal :=
  fun k => (V c (Pipeline.arrRef spec0 2) : S1x8192.Idx → EReal) (ix2 0 k)

abbrev val0_xblk (c : Dev nD) (t : Fin cfg0.N) : Vec Ideal S1024x8192 .bf16 := iblk0 V c 0 t
abbrev val0_wblk (c : Dev nD) (t : Fin cfg0.N) : Vec Ideal S1024x1024 .bf16 := iblk0 V c 1 t
abbrev val0_bblk (c : Dev nD) (t : Fin cfg0.N) : Vec Ideal S1x1024 .f32 := iblk0 V c 2 t

/-- The products a point adds at (b, q) are those of its tile of the reduction axis. -/
theorem val0_tile (c : Dev nD) (t : Fin cfg0.N) (b q : Fin 1024) :
    ∑ j : Fin 1024, val0_xslice (grid0.coords t) (val0_xblk V c t) (ix2 b j) * val0_wblk V c t (ix2 j q)
      = Cert.BlockSum.tile (val0_W V c) (val0_X V c) (t.val / 8) (t.val % 8) b q := by
  have hN : t.val < 64 := lt_of_lt_of_eq t.isLt (show cfg0.N = 64 from N_0)
  have hk : t.val % 8 < 8 := Nat.mod_lt _ (by decide)
  have hn : t.val / 8 < 8 := by omega
  obtain ⟨-, -, -, -, -, -, ek⟩ := val0_idx t
  unfold Cert.BlockSum.tile
  refine Finset.sum_congr rfl fun j _ => ?_
  have e1 : val0_xslice (grid0.coords t) (val0_xblk V c t) (ix2 b j) = val0_X V c b (Cert.BlockSum.pos (t.val % 8) j) :=
    (val0_xslice_apply (grid0.coords t) (val0_xblk V c t) b j (Cert.BlockSum.pos (t.val % 8) j)
      (by rw [Cert.BlockSum.pos_val _ hk, ek])).trans
      (val0_xblk_apply V c t b (Cert.BlockSum.pos (t.val % 8) j))
  have e2 : val0_wblk V c t (ix2 j q) = val0_W V c (Cert.BlockSum.pos (t.val % 8) j) (Cert.BlockSum.pos (t.val / 8) q) :=
    val0_wblk_apply V c t j q (Cert.BlockSum.pos (t.val % 8) j) (Cert.BlockSum.pos (t.val / 8) q)
      (Cert.BlockSum.pos_val _ hk j) (Cert.BlockSum.pos_val _ hn q)
  rw [e1, e2]

/-- One accumulating step: if the point before left the products of the tiles below k, this point leaves those up to k. -/
theorem val0_step (c : Dev nD) (t : Fin cfg0.N) (h0 : ¬t.val % 8 = 0) (hpred : t.val - 1 < cfg0.N) (b q : Fin 1024)
    (ih : ((outsAt0 (F := Ideal) V c (t.val - 1) hpred).2 : S1024x1024.Idx → EReal) (ix2 b q)
      = Cert.BlockSum.acc (val0_W V c) (val0_X V c) ((t.val - 1) / 8) ((t.val - 1) % 8) b q) :
    k0_pay2 (val0_xslice (grid0.coords t) (val0_xblk V c t)) (outsAt0 (F := Ideal) V c (t.val - 1) hpred).2 (val0_wblk V c t) (ix2 b q)
      = Cert.BlockSum.acc (val0_W V c) (val0_X V c) (t.val / 8) (t.val % 8) b q := by
  have e1 : (t.val - 1) / 8 = t.val / 8 := by omega
  have e2 : (t.val - 1) % 8 = t.val % 8 - 1 := by omega
  refine (val0_pay2_apply _ _ _ b q).trans ?_
  rw [ih, val0_tile V c t b q, e1, e2, Cert.BlockSum.acc_step _ _ _ (t.val % 8) h0 b q]

/-- After point t = 8 · n + k the accumulator holds, at (b, q), the products of the tiles k' ≤ k that go to column 1024 · n + q:
    k = 0 starts from the zero tile, a later k adds one tile to what the point before left. -/
theorem val0_acc (c : Dev nD) : ∀ (n : ℕ) (h : n < cfg0.N) (b q : Fin 1024),
    ((outsAt0 (F := Ideal) V c n h).2 : S1024x1024.Idx → EReal) (ix2 b q)
      = Cert.BlockSum.acc (val0_W V c) (val0_X V c) (n / 8) (n % 8) b q := by
  intro n
  induction n using Nat.strong_induction_on with
  | _ n ih =>
    intro h b q
    by_cases h0 : n % 8 = 0
    · have h1 : ¬n % 8 = 7 := by omega
      rw [outsAt0_A V c ⟨n, h⟩ h0 h1]
      dsimp only
      refine (congrFun (val0_sout_A (F := Ideal) c ⟨n, h⟩ (val0_xblk V c ⟨n, h⟩) (val0_wblk V c ⟨n, h⟩) (val0_bblk V c ⟨n, h⟩) h0 h1) (ix2 b q)).trans ?_
      refine (val0_pay2_apply _ _ _ b q).trans ?_
      rw [val0_pay1_apply, val0_tile V c ⟨n, h⟩ b q, h0, Cert.BlockSum.acc_first]
    · have hpred : n - 1 < cfg0.N := Nat.lt_of_le_of_lt (Nat.sub_le _ _) h
      have hstep := val0_step V c ⟨n, h⟩ h0 hpred b q (ih (n - 1) (by omega) hpred b q)
      by_cases h1 : n % 8 = 7
      · rw [outsAt0_C V c ⟨n, h⟩ h0 h1]
        dsimp only
        exact (congrFun (val0_sout_C (F := Ideal) c ⟨n, h⟩ (val0_xblk V c ⟨n, h⟩) (val0_wblk V c ⟨n, h⟩) (val0_bblk V c ⟨n, h⟩) (outsAt0 V c (n - 1) hpred).2 h0 h1) (ix2 b q)).trans hstep
      · rw [outsAt0_B V c ⟨n, h⟩ h0 h1]
        dsimp only
        exact (congrFun (val0_sout_B (F := Ideal) c ⟨n, h⟩ (val0_xblk V c ⟨n, h⟩) (val0_wblk V c ⟨n, h⟩) (val0_bblk V c ⟨n, h⟩) (outsAt0 V c (n - 1) hpred).2 h0 h1) (ix2 b q)).trans hstep

/-- The array the call leaves: at (b, c), max (∑ j', X[b, j'] · Wt[j', c] + B[0, c], 0). -/
abbrev val0_G (c : Dev nD) : S1024x8192.Idx → EReal :=
  fun y => Cert.Spec.stepDense (val0_W V c) (val0_B V c) (val0_X V c) (y 0) (y 1)

theorem val0_G_apply (c : Dev nD) (y : S1024x8192.Idx) (b : Fin 1024) (s : Fin 8192) (h0 : (y 0).val = b.val) (h1 : (y 1).val = s.val) :
    val0_G V c y = Cert.Spec.stepDense (val0_W V c) (val0_B V c) (val0_X V c) b s := by
  obtain rfl : y = ix2 b s := funext fun a => Fin.ext (by match a with | ⟨0, _⟩ => exact h0 | ⟨1, _⟩ => exact h1)
  rfl

/-- The tile stored at the last reduction step of column tile n, at (b, q), is the dense step at column 1024 · n + q. -/
theorem val0_tile_out (c : Dev nD) (t : Fin cfg0.N) (h0 : ¬t.val % 8 = 0) (h1 : t.val % 8 = 7) (b q : Fin 1024) :
    ((outsAt0 (F := Ideal) V c t.val t.isLt).1 : S1024x1024.Idx → EReal) (ix2 b q)
      = Cert.Spec.stepDense (val0_W V c) (val0_B V c) (val0_X V c) b (Cert.BlockSum.pos (t.val / 8) q) := by
  have hN : t.val < 64 := lt_of_lt_of_eq t.isLt (show cfg0.N = 64 from N_0)
  have hn : t.val / 8 < 8 := by omega
  have hpred : t.val - 1 < cfg0.N := Nat.lt_of_le_of_lt (Nat.sub_le _ _) t.isLt
  have eb : val0_bblk V c t (ix2 (0 : Fin 1) q) = val0_B V c (Cert.BlockSum.pos (t.val / 8) q) :=
    val0_bblk_apply V c t q (Cert.BlockSum.pos (t.val / 8) q) (Cert.BlockSum.pos_val _ hn q)
  rw [outsAt0_C V c t h0 h1]
  dsimp only
  refine (congrFun (val0_out_C (F := Ideal) c t (val0_xblk V c t) (val0_wblk V c t) (val0_bblk V c t) (outsAt0 V c (t.val - 1) hpred).2 h0 h1) (ix2 b q)).trans ?_
  refine (val0_pay3_apply _ _ b q).trans ?_
  rw [val0_step V c t h0 hpred b q (val0_acc V c (t.val - 1) hpred b q), h1, eb]
  exact Cert.BlockSum.finish (val0_W V c) (val0_B V c) (val0_X V c) (t.val / 8) b q

/-- The tile stored at k = 7 is block (0, n) of that array: the block starts at column 1024 · n. -/
theorem val0_flushed (c : Dev nD) (t : Fin cfg0.N) (hf : (cfg0.win 3).flush t = true) :
    (dat0 (F := Ideal) V c).flushed 3 t = ((cfg0.win 3).blk t).view.read (Elt Ideal) (val0_G V c) := by
  have h1 : t.val % 8 = 7 := (flush0_3 t).mp hf
  have h0 : ¬t.val % 8 = 0 := by omega
  have hN : t.val < 64 := lt_of_lt_of_eq t.isLt (show cfg0.N = 64 from N_0)
  have hn : t.val / 8 < 8 := by omega
  obtain ⟨e0, e1⟩ := idx_facts0_3 t
  show (cfg0.win 3).cut (grid0.coords t) ((dat0 V c).after 3 t) = _
  rw [after0_3]
  funext y
  obtain ⟨b, q, rfl⟩ : ∃ (b q : Fin 1024), y = ix2 b q := ⟨y 0, y 1, eq_ix2 y⟩
  show ((outsAt0 (F := Ideal) V c t.val t.isLt).1 : S1024x1024.Idx → EReal) (ix2 b q)
    = val0_G V c (((cfg0.win 3).blk t).view.emb (ix2 b q))
  rw [val0_tile_out V c t h0 h1 b q]
  refine (val0_G_apply V c _ b (Cert.BlockSum.pos (t.val / 8) q) ?_ ?_).symm
  · show win0_3.index t (0 : Fin 2) * 1024 + 1 * b.val = b.val
    rw [e0]; omega
  · show win0_3.index t (1 : Fin 2) * 1024 + 1 * q.val = (Cert.BlockSum.pos (t.val / 8) q).val
    rw [e1, Cert.BlockSum.pos_val _ hn]; omega

/-- The eight blocks tile the output, so the call's output array at (b, n) is one dense step of its three input arrays there. -/
theorem arrAt0_3_apply (c : Dev nD) (b : Fin 1024) (n : Fin 8192) :
    ((dat0 (F := Ideal) V c).arrAt 3 cfg0.N : S1024x8192.Idx → EReal) (ix2 b n)
      = Cert.Spec.stepDense (fun j k => (V c (Pipeline.arrRef spec0 1) : S8192x8192.Idx → EReal) (ix2 j k))
          (fun k => (V c (Pipeline.arrRef spec0 2) : S1x8192.Idx → EReal) (ix2 0 k))
          (fun p j => (V c (Pipeline.arrRef spec0 0) : S1024x8192.Idx → EReal) (ix2 p j)) b n := by
  rw [(dat0 (F := Ideal) V c).arrAt_eq_of_cover 3 (val0_G V c) (val0_flushed V c) (fun i => val0_cover i)]

end AtIdeal

end Cert.KernelIdeal.Fr

end
-- ==== Proof.KI.R1Cover.lean ====
import proofs.«427775_j1245540516174_2_alg».proof.Proof.KI.R1Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output window's block at point t: row block 0, column block t / 8. -/
theorem idx_facts1_3 : ∀ t : Fin cfg1.N, win1_3.index t (0 : Fin 2) = 0 ∧ win1_3.index t (1 : Fin 2) = t.val / 8 :=
  (by decide +kernel : ∀ t : Fin grid1.N, win1_3.index t (0 : Fin 2) = 0 ∧ win1_3.index t (1 : Fin 2) = t.val / 8)

theorem mem_blk1_3 (t : Fin cfg1.N) (i : S1024x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole (Pipeline.arrRef spec1 3)).slice (win1_3.rect t)).set ↔ _
  rw [View.set_slice_whole, Rect.mem_set_unit]
  exact Iff.rfl

/-- Column tile n is the block of point 8 · n + 7, so an index's column names a point whose block holds it. -/
theorem val1_cover (i : S1024x8192.Idx) :
    ∃ t : Fin cfg1.N, (cfg1.win 3).flush t = true ∧ i ∈ ((cfg1.win 3).blk t).view.set := by
  have hi0 : (i 0).val < 1024 := (i 0).isLt
  have hi1 : (i 1).val < 8192 := (i 1).isLt
  have hN : cfg1.N = 64 := N_1
  have hlt : 8 * ((i 1).val / 1024) + 7 < cfg1.N := by rw [hN]; omega
  obtain ⟨e0, e1⟩ := idx_facts1_3 ⟨8 * ((i 1).val / 1024) + 7, hlt⟩
  refine ⟨⟨8 * ((i 1).val / 1024) + 7, hlt⟩, (flush1_3 _).mpr (by show (8 * ((i 1).val / 1024) + 7) % 8 = 7; omega), ?_⟩
  rw [mem_blk1_3]
  intro a
  match a with
  | ⟨0, _⟩ =>
    show win1_3.index ⟨8 * ((i 1).val / 1024) + 7, hlt⟩ (0 : Fin 2) * 1024 ≤ (i 0).val ∧ (i 0).val < win1_3.index ⟨8 * ((i 1).val / 1024) + 7, hlt⟩ (0 : Fin 2) * 1024 + 1024
    rw [e0]; omega
  | ⟨1, _⟩ =>
    show win1_3.index ⟨8 * ((i 1).val / 1024) + 7, hlt⟩ (1 : Fin 2) * 1024 ≤ (i 1).val ∧ (i 1).val < win1_3.index ⟨8 * ((i 1).val / 1024) + 7, hlt⟩ (1 : Fin 2) * 1024 + 1024
    rw [e1]; show (8 * ((i 1).val / 1024) + 7) / 8 * 1024 ≤ (i 1).val ∧ (i 1).val < (8 * ((i 1).val / 1024) + 7) / 8 * 1024 + 1024; omega

end Cert.KernelIdeal.Fr

end
-- ==== Proof.KI.R1Value.lean ====
import proofs.«427775_j1245540516174_2_alg».proof.Proof.KI.R1Frame
import proofs.«427775_j1245540516174_2_alg».proof.Proof.KI.R1Cover
import proofs.«427775_j1245540516174_2_alg».proof.Proof.Spec
import proofs.«427775_j1245540516174_2_alg».proof.Proof.BlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

section AnyValues

variable {F : FTy → Type} [FloatOps F]

theorem val1_hz : (![0, 0] : Fin 2 → Nat) = fun _ => 0 := funext fun a => by fin_cases a <;> rfl

/-- The slice of the input a point's product reads: all rows, the 1024 columns from 1024 · k on. -/
abbrev val1_xslice (i : grid1.Coords) (x0 : Vec F S1024x8192 .bf16) : Vec F S1024x1024 .bf16 :=
  View.ld x0 (Rect.unit (s := S1024x8192) (k1_off1 i) S1024x1024.size (k1_off1_inb i))

section Runs
variable (c : Dev nD) (t : Fin cfg1.N) (x0 : Vec F S1024x8192 .bf16) (x1 : Vec F S1024x1024 .bf16) (x2 : Vec F S1x1024 .f32) (xs : Vec F S1024x1024 .f32)

/-- k = 0: the accumulator is cleared and read back, so it is left at the zero tile plus the point's product. -/
theorem val1_sout_A (h0 h1) :
    sout1_of (runAt1_A (F := F) c t h0 h1 x0 x1 x2).2.1 = k1_pay2 (val1_xslice (grid1.coords t) x0) (k1_pay1 (F := F)) x1 := by
  unfold sout1_of
  rw [View.read_writes_eq_canon _ _ _ (scover1_A c t h0 h1 x0 x1 x2)]
  unfold runAt1_A kernelRun1_A
  dsimp only
  sl_unfold_words
  rw [View.canon_cons_unit_zero (S := S1024x1024) val1_hz, View.readCov_unit_zero (S := S1024x1024) _ val1_hz]
  simp only [View.readAt_eq_ld, (hs1_0 t).read_unread, (hs1_1 t).read_unread, View.ld_unit_zero (S := S1024x1024) val1_hz]
  rfl

/-- 0 < k < 7: what the point before left, plus the point's product. -/
theorem val1_sout_B (h0 h1) :
    sout1_of (runAt1_B (F := F) c t h0 h1 x0 x1 x2 xs).2.1 = k1_pay2 (val1_xslice (grid1.coords t) x0) xs x1 := by
  unfold sout1_of
  rw [View.read_writes_eq_canon _ _ _ (scover1_B c t h0 h1 x0 x1 x2 xs)]
  unfold runAt1_B kernelRun1_B
  dsimp only
  sl_unfold_words
  rw [View.canon_unit_zero val1_hz]
  simp only [View.readAt_eq_ld, (hs1_0 t).read_unread, (hs1_1 t).read_unread, (Memref.isWhole_whole cc1_scratch0).read_unread, View.ld_unit_zero (S := S1024x1024) val1_hz]
  rfl

/-- k = 7: the accumulator as for 0 < k < 7; the output tile is the bias row added to it, clipped below at zero. -/
theorem val1_sout_C (h0 h1) :
    sout1_of (runAt1_C (F := F) c t h0 h1 x0 x1 x2 xs).2.1 = k1_pay2 (val1_xslice (grid1.coords t) x0) xs x1 := by
  unfold sout1_of
  rw [View.read_writes_eq_canon _ _ _ (scover1_C c t h0 h1 x0 x1 x2 xs)]
  unfold runAt1_C kernelRun1_C
  dsimp only
  sl_unfold_words
  rw [View.canon_unit_zero val1_hz]
  simp only [View.readAt_eq_ld, (hs1_0 t).read_unread, (hs1_1 t).read_unread, (Memref.isWhole_whole cc1_scratch0).read_unread, View.ld_unit_zero (S := S1024x1024) val1_hz]
  rfl

theorem val1_out_C (h0 h1) :
    out1_of (runAt1_C (F := F) c t h0 h1 x0 x1 x2 xs).1 = k1_pay3 (k1_pay2 (val1_xslice (grid1.coords t) x0) xs x1) x2 := by
  unfold out1_of
  rw [View.read_writes_eq_canon _ _ _ (cover1_C c t h0 h1 x0 x1 x2 xs)]
  unfold runAt1_C kernelRun1_C
  dsimp only
  sl_unfold_words
  rw [View.canon_unit_zero val1_hz, View.readCov_unit_zero (S := S1024x1024) _ val1_hz]
  simp only [View.readAt_eq_ld, (hs1_0 t).read_unread, (hs1_1 t).read_unread, (hs1_2 t).read_unread, (Memref.isWhole_whole cc1_scratch0).read_unread, View.ld_unit_zero (S := S1024x1024) val1_hz, View.ld_unit_zero (S := S1x1024) val1_hz]
  rfl

end Runs

theorem val1_xslice_apply (i : grid1.Coords) (x0 : Vec F S1024x8192 .bf16) (b j : Fin 1024) (j' : Fin 8192)
    (hj : j'.val = 1024 * (i 1).val + j.val) : val1_xslice i x0 (ix2 b j) = x0 (ix2 b j') := by
  show x0 ((Rect.unit (s := S1024x8192) (k1_off1 i) S1024x1024.size (k1_off1_inb i)).idx (ix2 b j)) = _
  refine congrArg x0 (funext fun a => Fin.ext ?_)
  match a with
  | ⟨0, _⟩ => show k1_off1 i 0 + 1 * b.val = b.val; rw [k1_off1_eq]; show 0 + 1 * b.val = b.val; omega
  | ⟨1, _⟩ => show k1_off1 i 1 + 1 * j.val = j'.val; rw [k1_off1_eq, hj]; show 1024 * (i 1).val + 1 * j.val = _; omega

theorem val1_pay1_apply (b q : Fin 1024) : (k1_pay1 (F := Ideal)) (ix2 b q) = 0 := by
  unfold k1_pay1
  show shapeCast S1024x1024 (broadcast S1024x1024 (Ideal.ofBits .f32 0x00000000#32)) shapeCasts_S1024x1024_S1024x1024 (ix2 b q) = 0
  rw [shapeCast_self]
  exact Ideal.ofBits_zero_f32

/-- The block product at (b, q): the sum over the contracted position of the products of the entries. -/
theorem val1_matmul_apply (A B : FVec Ideal S1024x1024 .bf16) (b q : Fin 1024) :
    matmul dot_S1024x1024_S1024x1024_S1024x1024_1_0_0_1_n_n none A B (constant (F := Ideal) S1024x1024 .f32 0x00000000#32) (ix2 b q)
      = ∑ j : Fin 1024, A (ix2 b j) * B (ix2 j q) := by
  show FloatOps.matmul _ none A B _ (ix2 b q) = _
  rw [Ideal.matmul_constant_zero_apply,
    ← Equiv.sum_comp (contrEquiv1 dot_S1024x1024_S1024x1024_S1024x1024_1_0_0_1_n_n 1024 rfl rfl).symm]
  refine Finset.sum_congr rfl fun j _ => ?_
  have c2 := contrEquiv1_symm_val dot_S1024x1024_S1024x1024_S1024x1024_1_0_0_1_n_n 1024 rfl rfl j
  have l2 : dot_S1024x1024_S1024x1024_S1024x1024_1_0_0_1_n_n.lhsIdx (ix2 b q) ((contrEquiv1 _ 1024 rfl rfl).symm j) = ix2 b j := by
    funext ax; apply Fin.ext
    match ax with
    | ⟨0, _⟩ => simp [DotDims.lhsIdx, dot_S1024x1024_S1024x1024_S1024x1024_1_0_0_1_n_n]; rfl
    | ⟨1, _⟩ => simp [DotDims.lhsIdx, dot_S1024x1024_S1024x1024_S1024x1024_1_0_0_1_n_n]; exact c2
  have r2 : dot_S1024x1024_S1024x1024_S1024x1024_1_0_0_1_n_n.rhsIdx (ix2 b q) ((contrEquiv1 _ 1024 rfl rfl).symm j) = ix2 j q := by
    funext ax; apply Fin.ext
    match ax with
    | ⟨0, _⟩ => simp [DotDims.rhsIdx, dot_S1024x1024_S1024x1024_S1024x1024_1_0_0_1_n_n]; exact c2
    | ⟨1, _⟩ => simp [DotDims.rhsIdx, dot_S1024x1024_S1024x1024_S1024x1024_1_0_0_1_n_n]; rfl
  rw [l2, r2]

theorem val1_pay2_apply (v6 : Vec Ideal S1024x1024 .bf16) (v8 : Vec Ideal S1024x1024 .f32) (v9 : Vec Ideal S1024x1024 .bf16) (b q : Fin 1024) :
    k1_pay2 v6 v8 v9 (ix2 b q) = v8 (ix2 b q) + ∑ j : Fin 1024, v6 (ix2 b j) * v9 (ix2 j q) := by
  unfold k1_pay2
  show shapeCast S1024x1024 (addf v8 (matmul dot_S1024x1024_S1024x1024_S1024x1024_1_0_0_1_n_n none
      (shapeCast S1024x1024 v6 shapeCasts_S1024x1024_S1024x1024) (shapeCast S1024x1024 v9 shapeCasts_S1024x1024_S1024x1024)
      (constant (F := Ideal) S1024x1024 .f32 0x00000000#32))) shapeCasts_S1024x1024_S1024x1024 (ix2 b q) = _
  rw [shapeCast_self, shapeCast_self, shapeCast_self]
  show v8 (ix2 b q) + matmul dot_S1024x1024_S1024x1024_S1024x1024_1_0_0_1_n_n none v6 v9 (constant (F := Ideal) S1024x1024 .f32 0x00000000#32) (ix2 b q) = _
  rw [val1_matmul_apply]

theorem val1_pay3_apply (v19 : Vec Ideal S1024x1024 .f32) (v20 : Vec Ideal S1x1024 .f32) (b q : Fin 1024) :
    k1_pay3 v19 v20 (ix2 b q) = max (v19 (ix2 b q) + v20 (ix2 (0 : Fin 1) q)) 0 := by
  unfold k1_pay3
  show max (v19 (ix2 b q) + broadcastTo S1024x1024 (shapeCast S1x1024 v20 shapeCasts_S1x1024_S1x1024) broadcasts_S1x1024_S1024x1024 (ix2 b q))
      (Ideal.ofBits .f32 0x00000000#32) = _
  rw [shapeCast_self, broadcastTo_1b_ab_apply, Ideal.ofBits_zero_f32]

variable (V : (c : Dev nD) → (b : Ref sig .tc) → Buf (Elt F) ((c : Thread nD τ).loc b))

/-- At point t = 8 · n + k: the input is one block, the weight's block is (k, n), the bias row's is (0, n). -/
theorem val1_idx : ∀ t : Fin cfg1.N,
    win1_0.index t (0 : Fin 2) = 0 ∧ win1_0.index t (1 : Fin 2) = 0
    ∧ win1_1.index t (0 : Fin 2) = t.val % 8 ∧ win1_1.index t (1 : Fin 2) = t.val / 8
    ∧ win1_2.index t (0 : Fin 2) = 0 ∧ win1_2.index t (1 : Fin 2) = t.val / 8
    ∧ ((grid1.coords t) 1).val = t.val % 8 :=
  (by decide +kernel : ∀ t : Fin grid1.N, _)

theorem val1_xblk_apply (c : Dev nD) (t : Fin cfg1.N) (b : Fin 1024) (j' : Fin 8192) :
    (iblk1 V c 0 t : Vec F S1024x8192 .bf16) (ix2 b j')
      = (V c (Pipeline.arrRef spec1 0) : S1024x8192.Idx → Elt F .bf16) (ix2 b j') := by
  obtain ⟨e0, e1, -⟩ := val1_idx t
  unfold iblk1
  rw [View.read_apply]
  show (V c (Pipeline.arrRef spec1 0) : S1024x8192.Idx → Elt F .bf16) _ = _
  refine congrArg _ (funext fun a => Fin.ext ?_)
  match a with
  | ⟨0, _⟩ => show win1_0.index t (0 : Fin 2) * 1024 + 1 * b.val = b.val; rw [e0]; omega
  | ⟨1, _⟩ => show win1_0.index t (1 : Fin 2) * 8192 + 1 * j'.val = j'.val; rw [e1]; omega

theorem val1_wblk_apply (c : Dev nD) (t : Fin cfg1.N) (j q : Fin 1024) (r s : Fin 8192)
    (hr : r.val = 1024 * (t.val % 8) + j.val) (hs : s.val = 1024 * (t.val / 8) + q.val) :
    (iblk1 V c 1 t : Vec F S1024x1024 .bf16) (ix2 j q)
      = (V c (Pipeline.arrRef spec1 1) : S8192x8192.Idx → Elt F .bf16) (ix2 r s) := by
  obtain ⟨-, -, e0, e1, -⟩ := val1_idx t
  unfold iblk1
  rw [View.read_apply]
  show (V c (Pipeline.arrRef spec1 1) : S8192x8192.Idx → Elt F .bf16) _ = _
  refine congrArg _ (funext fun a => Fin.ext ?_)
  match a with
  | ⟨0, _⟩ => show win1_1.index t (0 : Fin 2) * 1024 + 1 * j.val = r.val; rw [e0, hr]; omega
  | ⟨1, _⟩ => show win1_1.index t (1 : Fin 2) * 1024 + 1 * q.val = s.val; rw [e1, hs]; omega

theorem val1_bblk_apply (c : Dev nD) (t : Fin cfg1.N) (q : Fin 1024) (s : Fin 8192)
    (hs : s.val = 1024 * (t.val / 8) + q.val) :
    (iblk1 V c 2 t : Vec F S1x1024 .f32) (ix2 (0 : Fin 1) q)
      = (V c (Pipeline.arrRef spec1 2) : S1x8192.Idx → Elt F .f32) (ix2 (0 : Fin 1) s) := by
  obtain ⟨-, -, -, -, e0, e1, -⟩ := val1_idx t
  unfold iblk1
  rw [View.read_apply]
  show (V c (Pipeline.arrRef spec1 2) : S1x8192.Idx → Elt F .f32) _ = _
  refine congrArg _ (funext fun a => Fin.ext ?_)
  match a with
  | ⟨0, _⟩ => show win1_2.index t (0 : Fin 2) * 1 + 1 * 0 = 0; rw [e0]
  | ⟨1, _⟩ => show win1_2.index t (1 : Fin 2) * 1024 + 1 * q.val = s.val; rw [e1, hs]; omega

end AnyValues

section AtIdeal

variable (V : (c : Dev nD) → (b : Ref sig .tc) → Buf (Elt Ideal) ((c : Thread nD τ).loc b))

abbrev val1_X (c : Dev nD) : Fin 1024 → Fin 8192 → EReal :=
  fun p j => (V c (Pipeline.arrRef spec1 0) : S1024x8192.Idx → EReal) (ix2 p j)
abbrev val1_W (c : Dev nD) : Fin 8192 → Fin 8192 → EReal :=
  fun j k => (V c (Pipeline.arrRef spec1 1) : S8192x8192.Idx → EReal) (ix2 j k)
abbrev val1_B (c : Dev nD) : Fin 8192 → EReal :=
  fun k => (V c (Pipeline.arrRef spec1 2) : S1x8192.Idx → EReal) (ix2 0 k)

abbrev val1_xblk (c : Dev nD) (t : Fin cfg1.N) : Vec Ideal S1024x8192 .bf16 := iblk1 V c 0 t
abbrev val1_wblk (c : Dev nD) (t : Fin cfg1.N) : Vec Ideal S1024x1024 .bf16 := iblk1 V c 1 t
abbrev val1_bblk (c : Dev nD) (t : Fin cfg1.N) : Vec Ideal S1x1024 .f32 := iblk1 V c 2 t

/-- The products a point adds at (b, q) are those of its tile of the reduction axis. -/
theorem val1_tile (c : Dev nD) (t : Fin cfg1.N) (b q : Fin 1024) :
    ∑ j : Fin 1024, val1_xslice (grid1.coords t) (val1_xblk V c t) (ix2 b j) * val1_wblk V c t (ix2 j q)
      = Cert.BlockSum.tile (val1_W V c) (val1_X V c) (t.val / 8) (t.val % 8) b q := by
  have hN : t.val < 64 := lt_of_lt_of_eq t.isLt (show cfg1.N = 64 from N_1)
  have hk : t.val % 8 < 8 := Nat.mod_lt _ (by decide)
  have hn : t.val / 8 < 8 := by omega
  obtain ⟨-, -, -, -, -, -, ek⟩ := val1_idx t
  unfold Cert.BlockSum.tile
  refine Finset.sum_congr rfl fun j _ => ?_
  have e1 : val1_xslice (grid1.coords t) (val1_xblk V c t) (ix2 b j) = val1_X V c b (Cert.BlockSum.pos (t.val % 8) j) :=
    (val1_xslice_apply (grid1.coords t) (val1_xblk V c t) b j (Cert.BlockSum.pos (t.val % 8) j)
      (by rw [Cert.BlockSum.pos_val _ hk, ek])).trans
      (val1_xblk_apply V c t b (Cert.BlockSum.pos (t.val % 8) j))
  have e2 : val1_wblk V c t (ix2 j q) = val1_W V c (Cert.BlockSum.pos (t.val % 8) j) (Cert.BlockSum.pos (t.val / 8) q) :=
    val1_wblk_apply V c t j q (Cert.BlockSum.pos (t.val % 8) j) (Cert.BlockSum.pos (t.val / 8) q)
      (Cert.BlockSum.pos_val _ hk j) (Cert.BlockSum.pos_val _ hn q)
  rw [e1, e2]

/-- One accumulating step: if the point before left the products of the tiles below k, this point leaves those up to k. -/
theorem val1_step (c : Dev nD) (t : Fin cfg1.N) (h0 : ¬t.val % 8 = 0) (hpred : t.val - 1 < cfg1.N) (b q : Fin 1024)
    (ih : ((outsAt1 (F := Ideal) V c (t.val - 1) hpred).2 : S1024x1024.Idx → EReal) (ix2 b q)
      = Cert.BlockSum.acc (val1_W V c) (val1_X V c) ((t.val - 1) / 8) ((t.val - 1) % 8) b q) :
    k1_pay2 (val1_xslice (grid1.coords t) (val1_xblk V c t)) (outsAt1 (F := Ideal) V c (t.val - 1) hpred).2 (val1_wblk V c t) (ix2 b q)
      = Cert.BlockSum.acc (val1_W V c) (val1_X V c) (t.val / 8) (t.val % 8) b q := by
  have e1 : (t.val - 1) / 8 = t.val / 8 := by omega
  have e2 : (t.val - 1) % 8 = t.val % 8 - 1 := by omega
  refine (val1_pay2_apply _ _ _ b q).trans ?_
  rw [ih, val1_tile V c t b q, e1, e2, Cert.BlockSum.acc_step _ _ _ (t.val % 8) h0 b q]

/-- After point t = 8 · n + k the accumulator holds, at (b, q), the products of the tiles k' ≤ k that go to column 1024 · n + q:
    k = 0 starts from the zero tile, a later k adds one tile to what the point before left. -/
theorem val1_acc (c : Dev nD) : ∀ (n : ℕ) (h : n < cfg1.N) (b q : Fin 1024),
    ((outsAt1 (F := Ideal) V c n h).2 : S1024x1024.Idx → EReal) (ix2 b q)
      = Cert.BlockSum.acc (val1_W V c) (val1_X V c) (n / 8) (n % 8) b q := by
  intro n
  induction n using Nat.strong_induction_on with
  | _ n ih =>
    intro h b q
    by_cases h0 : n % 8 = 0
    · have h1 : ¬n % 8 = 7 := by omega
      rw [outsAt1_A V c ⟨n, h⟩ h0 h1]
      dsimp only
      refine (congrFun (val1_sout_A (F := Ideal) c ⟨n, h⟩ (val1_xblk V c ⟨n, h⟩) (val1_wblk V c ⟨n, h⟩) (val1_bblk V c ⟨n, h⟩) h0 h1) (ix2 b q)).trans ?_
      refine (val1_pay2_apply _ _ _ b q).trans ?_
      rw [val1_pay1_apply, val1_tile V c ⟨n, h⟩ b q, h0, Cert.BlockSum.acc_first]
    · have hpred : n - 1 < cfg1.N := Nat.lt_of_le_of_lt (Nat.sub_le _ _) h
      have hstep := val1_step V c ⟨n, h⟩ h0 hpred b q (ih (n - 1) (by omega) hpred b q)
      by_cases h1 : n % 8 = 7
      · rw [outsAt1_C V c ⟨n, h⟩ h0 h1]
        dsimp only
        exact (congrFun (val1_sout_C (F := Ideal) c ⟨n, h⟩ (val1_xblk V c ⟨n, h⟩) (val1_wblk V c ⟨n, h⟩) (val1_bblk V c ⟨n, h⟩) (outsAt1 V c (n - 1) hpred).2 h0 h1) (ix2 b q)).trans hstep
      · rw [outsAt1_B V c ⟨n, h⟩ h0 h1]
        dsimp only
        exact (congrFun (val1_sout_B (F := Ideal) c ⟨n, h⟩ (val1_xblk V c ⟨n, h⟩) (val1_wblk V c ⟨n, h⟩) (val1_bblk V c ⟨n, h⟩) (outsAt1 V c (n - 1) hpred).2 h0 h1) (ix2 b q)).trans hstep

/-- The array the call leaves: at (b, c), max (∑ j', X[b, j'] · Wt[j', c] + B[0, c], 0). -/
abbrev val1_G (c : Dev nD) : S1024x8192.Idx → EReal :=
  fun y => Cert.Spec.stepDense (val1_W V c) (val1_B V c) (val1_X V c) (y 0) (y 1)

theorem val1_G_apply (c : Dev nD) (y : S1024x8192.Idx) (b : Fin 1024) (s : Fin 8192) (h0 : (y 0).val = b.val) (h1 : (y 1).val = s.val) :
    val1_G V c y = Cert.Spec.stepDense (val1_W V c) (val1_B V c) (val1_X V c) b s := by
  obtain rfl : y = ix2 b s := funext fun a => Fin.ext (by match a with | ⟨0, _⟩ => exact h0 | ⟨1, _⟩ => exact h1)
  rfl

/-- The tile stored at the last reduction step of column tile n, at (b, q), is the dense step at column 1024 · n + q. -/
theorem val1_tile_out (c : Dev nD) (t : Fin cfg1.N) (h0 : ¬t.val % 8 = 0) (h1 : t.val % 8 = 7) (b q : Fin 1024) :
    ((outsAt1 (F := Ideal) V c t.val t.isLt).1 : S1024x1024.Idx → EReal) (ix2 b q)
      = Cert.Spec.stepDense (val1_W V c) (val1_B V c) (val1_X V c) b (Cert.BlockSum.pos (t.val / 8) q) := by
  have hN : t.val < 64 := lt_of_lt_of_eq t.isLt (show cfg1.N = 64 from N_1)
  have hn : t.val / 8 < 8 := by omega
  have hpred : t.val - 1 < cfg1.N := Nat.lt_of_le_of_lt (Nat.sub_le _ _) t.isLt
  have eb : val1_bblk V c t (ix2 (0 : Fin 1) q) = val1_B V c (Cert.BlockSum.pos (t.val / 8) q) :=
    val1_bblk_apply V c t q (Cert.BlockSum.pos (t.val / 8) q) (Cert.BlockSum.pos_val _ hn q)
  rw [outsAt1_C V c t h0 h1]
  dsimp only
  refine (congrFun (val1_out_C (F := Ideal) c t (val1_xblk V c t) (val1_wblk V c t) (val1_bblk V c t) (outsAt1 V c (t.val - 1) hpred).2 h0 h1) (ix2 b q)).trans ?_
  refine (val1_pay3_apply _ _ b q).trans ?_
  rw [val1_step V c t h0 hpred b q (val1_acc V c (t.val - 1) hpred b q), h1, eb]
  exact Cert.BlockSum.finish (val1_W V c) (val1_B V c) (val1_X V c) (t.val / 8) b q

/-- The tile stored at k = 7 is block (0, n) of that array: the block starts at column 1024 · n. -/
theorem val1_flushed (c : Dev nD) (t : Fin cfg1.N) (hf : (cfg1.win 3).flush t = true) :
    (dat1 (F := Ideal) V c).flushed 3 t = ((cfg1.win 3).blk t).view.read (Elt Ideal) (val1_G V c) := by
  have h1 : t.val % 8 = 7 := (flush1_3 t).mp hf
  have h0 : ¬t.val % 8 = 0 := by omega
  have hN : t.val < 64 := lt_of_lt_of_eq t.isLt (show cfg1.N = 64 from N_1)
  have hn : t.val / 8 < 8 := by omega
  obtain ⟨e0, e1⟩ := idx_facts1_3 t
  show (cfg1.win 3).cut (grid1.coords t) ((dat1 V c).after 3 t) = _
  rw [after1_3]
  funext y
  obtain ⟨b, q, rfl⟩ : ∃ (b q : Fin 1024), y = ix2 b q := ⟨y 0, y 1, eq_ix2 y⟩
  show ((outsAt1 (F := Ideal) V c t.val t.isLt).1 : S1024x1024.Idx → EReal) (ix2 b q)
    = val1_G V c (((cfg1.win 3).blk t).view.emb (ix2 b q))
  rw [val1_tile_out V c t h0 h1 b q]
  refine (val1_G_apply V c _ b (Cert.BlockSum.pos (t.val / 8) q) ?_ ?_).symm
  · show win1_3.index t (0 : Fin 2) * 1024 + 1 * b.val = b.val
    rw [e0]; omega
  · show win1_3.index t (1 : Fin 2) * 1024 + 1 * q.val = (Cert.BlockSum.pos (t.val / 8) q).val
    rw [e1, Cert.BlockSum.pos_val _ hn]; omega

/-- The eight blocks tile the output, so the call's output array at (b, n) is one dense step of its three input arrays there. -/
theorem arrAt1_3_apply (c : Dev nD) (b : Fin 1024) (n : Fin 8192) :
    ((dat1 (F := Ideal) V c).arrAt 3 cfg1.N : S1024x8192.Idx → EReal) (ix2 b n)
      = Cert.Spec.stepDense (fun j k => (V c (Pipeline.arrRef spec1 1) : S8192x8192.Idx → EReal) (ix2 j k))
          (fun k => (V c (Pipeline.arrRef spec1 2) : S1x8192.Idx → EReal) (ix2 0 k))
          (fun p j => (V c (Pipeline.arrRef spec1 0) : S1024x8192.Idx → EReal) (ix2 p j)) b n := by
  rw [(dat1 (F := Ideal) V c).arrAt_eq_of_cover 3 (val1_G V c) (val1_flushed V c) (fun i => val1_cover i)]

end AtIdeal

end Cert.KernelIdeal.Fr

end
-- ==== Proof.KI.R2Cover.lean ====
import proofs.«427775_j1245540516174_2_alg».proof.Proof.KI.R2Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output window's block at point t: row block 0, column block t / 8. -/
theorem idx_facts2_3 : ∀ t : Fin cfg2.N, win2_3.index t (0 : Fin 2) = 0 ∧ win2_3.index t (1 : Fin 2) = t.val / 8 :=
  (by decide +kernel : ∀ t : Fin grid2.N, win2_3.index t (0 : Fin 2) = 0 ∧ win2_3.index t (1 : Fin 2) = t.val / 8)

theorem mem_blk2_3 (t : Fin cfg2.N) (i : S1024x8192.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole (Pipeline.arrRef spec2 3)).slice (win2_3.rect t)).set ↔ _
  rw [View.set_slice_whole, Rect.mem_set_unit]
  exact Iff.rfl

/-- Column tile n is the block of point 8 · n + 7, so an index's column names a point whose block holds it. -/
theorem val2_cover (i : S1024x8192.Idx) :
    ∃ t : Fin cfg2.N, (cfg2.win 3).flush t = true ∧ i ∈ ((cfg2.win 3).blk t).view.set := by
  have hi0 : (i 0).val < 1024 := (i 0).isLt
  have hi1 : (i 1).val < 8192 := (i 1).isLt
  have hN : cfg2.N = 64 := N_2
  have hlt : 8 * ((i 1).val / 1024) + 7 < cfg2.N := by rw [hN]; omega
  obtain ⟨e0, e1⟩ := idx_facts2_3 ⟨8 * ((i 1).val / 1024) + 7, hlt⟩
  refine ⟨⟨8 * ((i 1).val / 1024) + 7, hlt⟩, (flush2_3 _).mpr (by show (8 * ((i 1).val / 1024) + 7) % 8 = 7; omega), ?_⟩
  rw [mem_blk2_3]
  intro a
  match a with
  | ⟨0, _⟩ =>
    show win2_3.index ⟨8 * ((i 1).val / 1024) + 7, hlt⟩ (0 : Fin 2) * 1024 ≤ (i 0).val ∧ (i 0).val < win2_3.index ⟨8 * ((i 1).val / 1024) + 7, hlt⟩ (0 : Fin 2) * 1024 + 1024
    rw [e0]; omega
  | ⟨1, _⟩ =>
    show win2_3.index ⟨8 * ((i 1).val / 1024) + 7, hlt⟩ (1 : Fin 2) * 1024 ≤ (i 1).val ∧ (i 1).val < win2_3.index ⟨8 * ((i 1).val / 1024) + 7, hlt⟩ (1 : Fin 2) * 1024 + 1024
    rw [e1]; show (8 * ((i 1).val / 1024) + 7) / 8 * 1024 ≤ (i 1).val ∧ (i 1).val < (8 * ((i 1).val / 1024) + 7) / 8 * 1024 + 1024; omega

end Cert.KernelIdeal.Fr

end
-- ==== Proof.KI.R2Value.lean ====
import proofs.«427775_j1245540516174_2_alg».proof.Proof.KI.R2Frame
import proofs.«427775_j1245540516174_2_alg».proof.Proof.KI.R2Cover
import proofs.«427775_j1245540516174_2_alg».proof.Proof.Spec
import proofs.«427775_j1245540516174_2_alg».proof.Proof.BlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

section AnyValues

variable {F : FTy → Type} [FloatOps F]

theorem val2_hz : (![0, 0] : Fin 2 → Nat) = fun _ => 0 := funext fun a => by fin_cases a <;> rfl

/-- The slice of the input a point's product reads: all rows, the 1024 columns from 1024 · k on. -/
abbrev val2_xslice (i : grid2.Coords) (x0 : Vec F S1024x8192 .bf16) : Vec F S1024x1024 .bf16 :=
  View.ld x0 (Rect.unit (s := S1024x8192) (k2_off1 i) S1024x1024.size (k2_off1_inb i))

section Runs
variable (c : Dev nD) (t : Fin cfg2.N) (x0 : Vec F S1024x8192 .bf16) (x1 : Vec F S1024x1024 .bf16) (x2 : Vec F S1x1024 .f32) (xs : Vec F S1024x1024 .f32)

/-- k = 0: the accumulator is cleared and read back, so it is left at the zero tile plus the point's product. -/
theorem val2_sout_A (h0 h1) :
    sout2_of (runAt2_A (F := F) c t h0 h1 x0 x1 x2).2.1 = k2_pay2 (val2_xslice (grid2.coords t) x0) (k2_pay1 (F := F)) x1 := by
  unfold sout2_of
  rw [View.read_writes_eq_canon _ _ _ (scover2_A c t h0 h1 x0 x1 x2)]
  unfold runAt2_A kernelRun2_A
  dsimp only
  sl_unfold_words
  rw [View.canon_cons_unit_zero (S := S1024x1024) val2_hz, View.readCov_unit_zero (S := S1024x1024) _ val2_hz]
  simp only [View.readAt_eq_ld, (hs2_0 t).read_unread, (hs2_1 t).read_unread, View.ld_unit_zero (S := S1024x1024) val2_hz]
  rfl

/-- 0 < k < 7: what the point before left, plus the point's product. -/
theorem val2_sout_B (h0 h1) :
    sout2_of (runAt2_B (F := F) c t h0 h1 x0 x1 x2 xs).2.1 = k2_pay2 (val2_xslice (grid2.coords t) x0) xs x1 := by
  unfold sout2_of
  rw [View.read_writes_eq_canon _ _ _ (scover2_B c t h0 h1 x0 x1 x2 xs)]
  unfold runAt2_B kernelRun2_B
  dsimp only
  sl_unfold_words
  rw [View.canon_unit_zero val2_hz]
  simp only [View.readAt_eq_ld, (hs2_0 t).read_unread, (hs2_1 t).read_unread, (Memref.isWhole_whole cc2_scratch0).read_unread, View.ld_unit_zero (S := S1024x1024) val2_hz]
  rfl

/-- k = 7: the accumulator as for 0 < k < 7; the output tile is the bias row added to it, clipped below at zero. -/
theorem val2_sout_C (h0 h1) :
    sout2_of (runAt2_C (F := F) c t h0 h1 x0 x1 x2 xs).2.1 = k2_pay2 (val2_xslice (grid2.coords t) x0) xs x1 := by
  unfold sout2_of
  rw [View.read_writes_eq_canon _ _ _ (scover2_C c t h0 h1 x0 x1 x2 xs)]
  unfold runAt2_C kernelRun2_C
  dsimp only
  sl_unfold_words
  rw [View.canon_unit_zero val2_hz]
  simp only [View.readAt_eq_ld, (hs2_0 t).read_unread, (hs2_1 t).read_unread, (Memref.isWhole_whole cc2_scratch0).read_unread, View.ld_unit_zero (S := S1024x1024) val2_hz]
  rfl

theorem val2_out_C (h0 h1) :
    out2_of (runAt2_C (F := F) c t h0 h1 x0 x1 x2 xs).1 = k2_pay3 (k2_pay2 (val2_xslice (grid2.coords t) x0) xs x1) x2 := by
  unfold out2_of
  rw [View.read_writes_eq_canon _ _ _ (cover2_C c t h0 h1 x0 x1 x2 xs)]
  unfold runAt2_C kernelRun2_C
  dsimp only
  sl_unfold_words
  rw [View.canon_unit_zero val2_hz, View.readCov_unit_zero (S := S1024x1024) _ val2_hz]
  simp only [View.readAt_eq_ld, (hs2_0 t).read_unread, (hs2_1 t).read_unread, (hs2_2 t).read_unread, (Memref.isWhole_whole cc2_scratch0).read_unread, View.ld_unit_zero (S := S1024x1024) val2_hz, View.ld_unit_zero (S := S1x1024) val2_hz]
  rfl

end Runs

theorem val2_xslice_apply (i : grid2.Coords) (x0 : Vec F S1024x8192 .bf16) (b j : Fin 1024) (j' : Fin 8192)
    (hj : j'.val = 1024 * (i 1).val + j.val) : val2_xslice i x0 (ix2 b j) = x0 (ix2 b j') := by
  show x0 ((Rect.unit (s := S1024x8192) (k2_off1 i) S1024x1024.size (k2_off1_inb i)).idx (ix2 b j)) = _
  refine congrArg x0 (funext fun a => Fin.ext ?_)
  match a with
  | ⟨0, _⟩ => show k2_off1 i 0 + 1 * b.val = b.val; rw [k2_off1_eq]; show 0 + 1 * b.val = b.val; omega
  | ⟨1, _⟩ => show k2_off1 i 1 + 1 * j.val = j'.val; rw [k2_off1_eq, hj]; show 1024 * (i 1).val + 1 * j.val = _; omega

theorem val2_pay1_apply (b q : Fin 1024) : (k2_pay1 (F := Ideal)) (ix2 b q) = 0 := by
  unfold k2_pay1
  show shapeCast S1024x1024 (broadcast S1024x1024 (Ideal.ofBits .f32 0x00000000#32)) shapeCasts_S1024x1024_S1024x1024 (ix2 b q) = 0
  rw [shapeCast_self]
  exact Ideal.ofBits_zero_f32

/-- The block product at (b, q): the sum over the contracted position of the products of the entries. -/
theorem val2_matmul_apply (A B : FVec Ideal S1024x1024 .bf16) (b q : Fin 1024) :
    matmul dot_S1024x1024_S1024x1024_S1024x1024_1_0_0_1_n_n none A B (constant (F := Ideal) S1024x1024 .f32 0x00000000#32) (ix2 b q)
      = ∑ j : Fin 1024, A (ix2 b j) * B (ix2 j q) := by
  show FloatOps.matmul _ none A B _ (ix2 b q) = _
  rw [Ideal.matmul_constant_zero_apply,
    ← Equiv.sum_comp (contrEquiv1 dot_S1024x1024_S1024x1024_S1024x1024_1_0_0_1_n_n 1024 rfl rfl).symm]
  refine Finset.sum_congr rfl fun j _ => ?_
  have c2 := contrEquiv1_symm_val dot_S1024x1024_S1024x1024_S1024x1024_1_0_0_1_n_n 1024 rfl rfl j
  have l2 : dot_S1024x1024_S1024x1024_S1024x1024_1_0_0_1_n_n.lhsIdx (ix2 b q) ((contrEquiv1 _ 1024 rfl rfl).symm j) = ix2 b j := by
    funext ax; apply Fin.ext
    match ax with
    | ⟨0, _⟩ => simp [DotDims.lhsIdx, dot_S1024x1024_S1024x1024_S1024x1024_1_0_0_1_n_n]; rfl
    | ⟨1, _⟩ => simp [DotDims.lhsIdx, dot_S1024x1024_S1024x1024_S1024x1024_1_0_0_1_n_n]; exact c2
  have r2 : dot_S1024x1024_S1024x1024_S1024x1024_1_0_0_1_n_n.rhsIdx (ix2 b q) ((contrEquiv1 _ 1024 rfl rfl).symm j) = ix2 j q := by
    funext ax; apply Fin.ext
    match ax with
    | ⟨0, _⟩ => simp [DotDims.rhsIdx, dot_S1024x1024_S1024x1024_S1024x1024_1_0_0_1_n_n]; exact c2
    | ⟨1, _⟩ => simp [DotDims.rhsIdx, dot_S1024x1024_S1024x1024_S1024x1024_1_0_0_1_n_n]; rfl
  rw [l2, r2]

theorem val2_pay2_apply (v6 : Vec Ideal S1024x1024 .bf16) (v8 : Vec Ideal S1024x1024 .f32) (v9 : Vec Ideal S1024x1024 .bf16) (b q : Fin 1024) :
    k2_pay2 v6 v8 v9 (ix2 b q) = v8 (ix2 b q) + ∑ j : Fin 1024, v6 (ix2 b j) * v9 (ix2 j q) := by
  unfold k2_pay2
  show shapeCast S1024x1024 (addf v8 (matmul dot_S1024x1024_S1024x1024_S1024x1024_1_0_0_1_n_n none
      (shapeCast S1024x1024 v6 shapeCasts_S1024x1024_S1024x1024) (shapeCast S1024x1024 v9 shapeCasts_S1024x1024_S1024x1024)
      (constant (F := Ideal) S1024x1024 .f32 0x00000000#32))) shapeCasts_S1024x1024_S1024x1024 (ix2 b q) = _
  rw [shapeCast_self, shapeCast_self, shapeCast_self]
  show v8 (ix2 b q) + matmul dot_S1024x1024_S1024x1024_S1024x1024_1_0_0_1_n_n none v6 v9 (constant (F := Ideal) S1024x1024 .f32 0x00000000#32) (ix2 b q) = _
  rw [val2_matmul_apply]

theorem val2_pay3_apply (v19 : Vec Ideal S1024x1024 .f32) (v20 : Vec Ideal S1x1024 .f32) (b q : Fin 1024) :
    k2_pay3 v19 v20 (ix2 b q) = max (v19 (ix2 b q) + v20 (ix2 (0 : Fin 1) q)) 0 := by
  unfold k2_pay3
  show max (v19 (ix2 b q) + broadcastTo S1024x1024 (shapeCast S1x1024 v20 shapeCasts_S1x1024_S1x1024) broadcasts_S1x1024_S1024x1024 (ix2 b q))
      (Ideal.ofBits .f32 0x00000000#32) = _
  rw [shapeCast_self, broadcastTo_1b_ab_apply, Ideal.ofBits_zero_f32]

variable (V : (c : Dev nD) → (b : Ref sig .tc) → Buf (Elt F) ((c : Thread nD τ).loc b))

/-- At point t = 8 · n + k: the input is one block, the weight's block is (k, n), the bias row's is (0, n). -/
theorem val2_idx : ∀ t : Fin cfg2.N,
    win2_0.index t (0 : Fin 2) = 0 ∧ win2_0.index t (1 : Fin 2) = 0
    ∧ win2_1.index t (0 : Fin 2) = t.val % 8 ∧ win2_1.index t (1 : Fin 2) = t.val / 8
    ∧ win2_2.index t (0 : Fin 2) = 0 ∧ win2_2.index t (1 : Fin 2) = t.val / 8
    ∧ ((grid2.coords t) 1).val = t.val % 8 :=
  (by decide +kernel : ∀ t : Fin grid2.N, _)

theorem val2_xblk_apply (c : Dev nD) (t : Fin cfg2.N) (b : Fin 1024) (j' : Fin 8192) :
    (iblk2 V c 0 t : Vec F S1024x8192 .bf16) (ix2 b j')
      = (V c (Pipeline.arrRef spec2 0) : S1024x8192.Idx → Elt F .bf16) (ix2 b j') := by
  obtain ⟨e0, e1, -⟩ := val2_idx t
  unfold iblk2
  rw [View.read_apply]
  show (V c (Pipeline.arrRef spec2 0) : S1024x8192.Idx → Elt F .bf16) _ = _
  refine congrArg _ (funext fun a => Fin.ext ?_)
  match a with
  | ⟨0, _⟩ => show win2_0.index t (0 : Fin 2) * 1024 + 1 * b.val = b.val; rw [e0]; omega
  | ⟨1, _⟩ => show win2_0.index t (1 : Fin 2) * 8192 + 1 * j'.val = j'.val; rw [e1]; omega

theorem val2_wblk_apply (c : Dev nD) (t : Fin cfg2.N) (j q : Fin 1024) (r s : Fin 8192)
    (hr : r.val = 1024 * (t.val % 8) + j.val) (hs : s.val = 1024 * (t.val / 8) + q.val) :
    (iblk2 V c 1 t : Vec F S1024x1024 .bf16) (ix2 j q)
      = (V c (Pipeline.arrRef spec2 1) : S8192x8192.Idx → Elt F .bf16) (ix2 r s) := by
  obtain ⟨-, -, e0, e1, -⟩ := val2_idx t
  unfold iblk2
  rw [View.read_apply]
  show (V c (Pipeline.arrRef spec2 1) : S8192x8192.Idx → Elt F .bf16) _ = _
  refine congrArg _ (funext fun a => Fin.ext ?_)
  match a with
  | ⟨0, _⟩ => show win2_1.index t (0 : Fin 2) * 1024 + 1 * j.val = r.val; rw [e0, hr]; omega
  | ⟨1, _⟩ => show win2_1.index t (1 : Fin 2) * 1024 + 1 * q.val = s.val; rw [e1, hs]; omega

theorem val2_bblk_apply (c : Dev nD) (t : Fin cfg2.N) (q : Fin 1024) (s : Fin 8192)
    (hs : s.val = 1024 * (t.val / 8) + q.val) :
    (iblk2 V c 2 t : Vec F S1x1024 .f32) (ix2 (0 : Fin 1) q)
      = (V c (Pipeline.arrRef spec2 2) : S1x8192.Idx → Elt F .f32) (ix2 (0 : Fin 1) s) := by
  obtain ⟨-, -, -, -, e0, e1, -⟩ := val2_idx t
  unfold iblk2
  rw [View.read_apply]
  show (V c (Pipeline.arrRef spec2 2) : S1x8192.Idx → Elt F .f32) _ = _
  refine congrArg _ (funext fun a => Fin.ext ?_)
  match a with
  | ⟨0, _⟩ => show win2_2.index t (0 : Fin 2) * 1 + 1 * 0 = 0; rw [e0]
  | ⟨1, _⟩ => show win2_2.index t (1 : Fin 2) * 1024 + 1 * q.val = s.val; rw [e1, hs]; omega

end AnyValues

section AtIdeal

variable (V : (c : Dev nD) → (b : Ref sig .tc) → Buf (Elt Ideal) ((c : Thread nD τ).loc b))

abbrev val2_X (c : Dev nD) : Fin 1024 → Fin 8192 → EReal :=
  fun p j => (V c (Pipeline.arrRef spec2 0) : S1024x8192.Idx → EReal) (ix2 p j)
abbrev val2_W (c : Dev nD) : Fin 8192 → Fin 8192 → EReal :=
  fun j k => (V c (Pipeline.arrRef spec2 1) : S8192x8192.Idx → EReal) (ix2 j k)
abbrev val2_B (c : Dev nD) : Fin 8192 → EReal :=
  fun k => (V c (Pipeline.arrRef spec2 2) : S1x8192.Idx → EReal) (ix2 0 k)

abbrev val2_xblk (c : Dev nD) (t : Fin cfg2.N) : Vec Ideal S1024x8192 .bf16 := iblk2 V c 0 t
abbrev val2_wblk (c : Dev nD) (t : Fin cfg2.N) : Vec Ideal S1024x1024 .bf16 := iblk2 V c 1 t
abbrev val2_bblk (c : Dev nD) (t : Fin cfg2.N) : Vec Ideal S1x1024 .f32 := iblk2 V c 2 t

/-- The products a point adds at (b, q) are those of its tile of the reduction axis. -/
theorem val2_tile (c : Dev nD) (t : Fin cfg2.N) (b q : Fin 1024) :
    ∑ j : Fin 1024, val2_xslice (grid2.coords t) (val2_xblk V c t) (ix2 b j) * val2_wblk V c t (ix2 j q)
      = Cert.BlockSum.tile (val2_W V c) (val2_X V c) (t.val / 8) (t.val % 8) b q := by
  have hN : t.val < 64 := lt_of_lt_of_eq t.isLt (show cfg2.N = 64 from N_2)
  have hk : t.val % 8 < 8 := Nat.mod_lt _ (by decide)
  have hn : t.val / 8 < 8 := by omega
  obtain ⟨-, -, -, -, -, -, ek⟩ := val2_idx t
  unfold Cert.BlockSum.tile
  refine Finset.sum_congr rfl fun j _ => ?_
  have e1 : val2_xslice (grid2.coords t) (val2_xblk V c t) (ix2 b j) = val2_X V c b (Cert.BlockSum.pos (t.val % 8) j) :=
    (val2_xslice_apply (grid2.coords t) (val2_xblk V c t) b j (Cert.BlockSum.pos (t.val % 8) j)
      (by rw [Cert.BlockSum.pos_val _ hk, ek])).trans
      (val2_xblk_apply V c t b (Cert.BlockSum.pos (t.val % 8) j))
  have e2 : val2_wblk V c t (ix2 j q) = val2_W V c (Cert.BlockSum.pos (t.val % 8) j) (Cert.BlockSum.pos (t.val / 8) q) :=
    val2_wblk_apply V c t j q (Cert.BlockSum.pos (t.val % 8) j) (Cert.BlockSum.pos (t.val / 8) q)
      (Cert.BlockSum.pos_val _ hk j) (Cert.BlockSum.pos_val _ hn q)
  rw [e1, e2]

/-- One accumulating step: if the point before left the products of the tiles below k, this point leaves those up to k. -/
theorem val2_step (c : Dev nD) (t : Fin cfg2.N) (h0 : ¬t.val % 8 = 0) (hpred : t.val - 1 < cfg2.N) (b q : Fin 1024)
    (ih : ((outsAt2 (F := Ideal) V c (t.val - 1) hpred).2 : S1024x1024.Idx → EReal) (ix2 b q)
      = Cert.BlockSum.acc (val2_W V c) (val2_X V c) ((t.val - 1) / 8) ((t.val - 1) % 8) b q) :
    k2_pay2 (val2_xslice (grid2.coords t) (val2_xblk V c t)) (outsAt2 (F := Ideal) V c (t.val - 1) hpred).2 (val2_wblk V c t) (ix2 b q)
      = Cert.BlockSum.acc (val2_W V c) (val2_X V c) (t.val / 8) (t.val % 8) b q := by
  have e1 : (t.val - 1) / 8 = t.val / 8 := by omega
  have e2 : (t.val - 1) % 8 = t.val % 8 - 1 := by omega
  refine (val2_pay2_apply _ _ _ b q).trans ?_
  rw [ih, val2_tile V c t b q, e1, e2, Cert.BlockSum.acc_step _ _ _ (t.val % 8) h0 b q]

/-- After point t = 8 · n + k the accumulator holds, at (b, q), the products of the tiles k' ≤ k that go to column 1024 · n + q:
    k = 0 starts from the zero tile, a later k adds one tile to what the point before left. -/
theorem val2_acc (c : Dev nD) : ∀ (n : ℕ) (h : n < cfg2.N) (b q : Fin 1024),
    ((outsAt2 (F := Ideal) V c n h).2 : S1024x1024.Idx → EReal) (ix2 b q)
      = Cert.BlockSum.acc (val2_W V c) (val2_X V c) (n / 8) (n % 8) b q := by
  intro n
  induction n using Nat.strong_induction_on with
  | _ n ih =>
    intro h b q
    by_cases h0 : n % 8 = 0
    · have h1 : ¬n % 8 = 7 := by omega
      rw [outsAt2_A V c ⟨n, h⟩ h0 h1]
      dsimp only
      refine (congrFun (val2_sout_A (F := Ideal) c ⟨n, h⟩ (val2_xblk V c ⟨n, h⟩) (val2_wblk V c ⟨n, h⟩) (val2_bblk V c ⟨n, h⟩) h0 h1) (ix2 b q)).trans ?_
      refine (val2_pay2_apply _ _ _ b q).trans ?_
      rw [val2_pay1_apply, val2_tile V c ⟨n, h⟩ b q, h0, Cert.BlockSum.acc_first]
    · have hpred : n - 1 < cfg2.N := Nat.lt_of_le_of_lt (Nat.sub_le _ _) h
      have hstep := val2_step V c ⟨n, h⟩ h0 hpred b q (ih (n - 1) (by omega) hpred b q)
      by_cases h1 : n % 8 = 7
      · rw [outsAt2_C V c ⟨n, h⟩ h0 h1]
        dsimp only
        exact (congrFun (val2_sout_C (F := Ideal) c ⟨n, h⟩ (val2_xblk V c ⟨n, h⟩) (val2_wblk V c ⟨n, h⟩) (val2_bblk V c ⟨n, h⟩) (outsAt2 V c (n - 1) hpred).2 h0 h1) (ix2 b q)).trans hstep
      · rw [outsAt2_B V c ⟨n, h⟩ h0 h1]
        dsimp only
        exact (congrFun (val2_sout_B (F := Ideal) c ⟨n, h⟩ (val2_xblk V c ⟨n, h⟩) (val2_wblk V c ⟨n, h⟩) (val2_bblk V c ⟨n, h⟩) (outsAt2 V c (n - 1) hpred).2 h0 h1) (ix2 b q)).trans hstep

/-- The array the call leaves: at (b, c), max (∑ j', X[b, j'] · Wt[j', c] + B[0, c], 0). -/
abbrev val2_G (c : Dev nD) : S1024x8192.Idx → EReal :=
  fun y => Cert.Spec.stepDense (val2_W V c) (val2_B V c) (val2_X V c) (y 0) (y 1)

theorem val2_G_apply (c : Dev nD) (y : S1024x8192.Idx) (b : Fin 1024) (s : Fin 8192) (h0 : (y 0).val = b.val) (h1 : (y 1).val = s.val) :
    val2_G V c y = Cert.Spec.stepDense (val2_W V c) (val2_B V c) (val2_X V c) b s := by
  obtain rfl : y = ix2 b s := funext fun a => Fin.ext (by match a with | ⟨0, _⟩ => exact h0 | ⟨1, _⟩ => exact h1)
  rfl

/-- The tile stored at the last reduction step of column tile n, at (b, q), is the dense step at column 1024 · n + q. -/
theorem val2_tile_out (c : Dev nD) (t : Fin cfg2.N) (h0 : ¬t.val % 8 = 0) (h1 : t.val % 8 = 7) (b q : Fin 1024) :
    ((outsAt2 (F := Ideal) V c t.val t.isLt).1 : S1024x1024.Idx → EReal) (ix2 b q)
      = Cert.Spec.stepDense (val2_W V c) (val2_B V c) (val2_X V c) b (Cert.BlockSum.pos (t.val / 8) q) := by
  have hN : t.val < 64 := lt_of_lt_of_eq t.isLt (show cfg2.N = 64 from N_2)
  have hn : t.val / 8 < 8 := by omega
  have hpred : t.val - 1 < cfg2.N := Nat.lt_of_le_of_lt (Nat.sub_le _ _) t.isLt
  have eb : val2_bblk V c t (ix2 (0 : Fin 1) q) = val2_B V c (Cert.BlockSum.pos (t.val / 8) q) :=
    val2_bblk_apply V c t q (Cert.BlockSum.pos (t.val / 8) q) (Cert.BlockSum.pos_val _ hn q)
  rw [outsAt2_C V c t h0 h1]
  dsimp only
  refine (congrFun (val2_out_C (F := Ideal) c t (val2_xblk V c t) (val2_wblk V c t) (val2_bblk V c t) (outsAt2 V c (t.val - 1) hpred).2 h0 h1) (ix2 b q)).trans ?_
  refine (val2_pay3_apply _ _ b q).trans ?_
  rw [val2_step V c t h0 hpred b q (val2_acc V c (t.val - 1) hpred b q), h1, eb]
  exact Cert.BlockSum.finish (val2_W V c) (val2_B V c) (val2_X V c) (t.val / 8) b q

/-- The tile stored at k = 7 is block (0, n) of that array: the block starts at column 1024 · n. -/
theorem val2_flushed (c : Dev nD) (t : Fin cfg2.N) (hf : (cfg2.win 3).flush t = true) :
    (dat2 (F := Ideal) V c).flushed 3 t = ((cfg2.win 3).blk t).view.read (Elt Ideal) (val2_G V c) := by
  have h1 : t.val % 8 = 7 := (flush2_3 t).mp hf
  have h0 : ¬t.val % 8 = 0 := by omega
  have hN : t.val < 64 := lt_of_lt_of_eq t.isLt (show cfg2.N = 64 from N_2)
  have hn : t.val / 8 < 8 := by omega
  obtain ⟨e0, e1⟩ := idx_facts2_3 t
  show (cfg2.win 3).cut (grid2.coords t) ((dat2 V c).after 3 t) = _
  rw [after2_3]
  funext y
  obtain ⟨b, q, rfl⟩ : ∃ (b q : Fin 1024), y = ix2 b q := ⟨y 0, y 1, eq_ix2 y⟩
  show ((outsAt2 (F := Ideal) V c t.val t.isLt).1 : S1024x1024.Idx → EReal) (ix2 b q)
    = val2_G V c (((cfg2.win 3).blk t).view.emb (ix2 b q))
  rw [val2_tile_out V c t h0 h1 b q]
  refine (val2_G_apply V c _ b (Cert.BlockSum.pos (t.val / 8) q) ?_ ?_).symm
  · show win2_3.index t (0 : Fin 2) * 1024 + 1 * b.val = b.val
    rw [e0]; omega
  · show win2_3.index t (1 : Fin 2) * 1024 + 1 * q.val = (Cert.BlockSum.pos (t.val / 8) q).val
    rw [e1, Cert.BlockSum.pos_val _ hn]; omega

/-- The eight blocks tile the output, so the call's output array at (b, n) is one dense step of its three input arrays there. -/
theorem arrAt2_3_apply (c : Dev nD) (b : Fin 1024) (n : Fin 8192) :
    ((dat2 (F := Ideal) V c).arrAt 3 cfg2.N : S1024x8192.Idx → EReal) (ix2 b n)
      = Cert.Spec.stepDense (fun j k => (V c (Pipeline.arrRef spec2 1) : S8192x8192.Idx → EReal) (ix2 j k))
          (fun k => (V c (Pipeline.arrRef spec2 2) : S1x8192.Idx → EReal) (ix2 0 k))
          (fun p j => (V c (Pipeline.arrRef spec2 0) : S1024x8192.Idx → EReal) (ix2 p j)) b n := by
  rw [(dat2 (F := Ideal) V c).arrAt_eq_of_cover 3 (val2_G V c) (val2_flushed V c) (fun i => val2_cover i)]

end AtIdeal

end Cert.KernelIdeal.Fr

end
-- ==== Proof.KernelHost.lean ====
import proofs.«427775_j1245540516174_2_alg».proof.Proof.Gen.KernelIdeal.Regions
import proofs.«427775_j1245540516174_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostValue

open Idealize.ShloMosaic Idealize.ShloMosaic.TcCoe Idealize.ShloMosaic.ValueIdx Cert.KernelIdeal Cert.KernelIdeal.Gen

theorem toNat_of_toInt_nonneg {a : BitVec 32} (h0 : 0 ≤ a.toInt) : (a.toNat : Int) = a.toInt := by
  have hlt := a.isLt
  rw [BitVec.toInt_eq_toNat_cond] at h0 ⊢
  split_ifs at h0 ⊢ with h
  · rfl
  · omega

/-- For a, b in [0, 8192) the word a · 8192 + b, negative-index wrap included, is that integer: nothing overflows 32 bits. -/
theorem flatWord_toInt (a b : BitVec 32) (ha0 : 0 ≤ a.toInt) (ha : a.toInt < 8192) (hb0 : 0 ≤ b.toInt) (hb : b.toInt < 8192) :
    (Scalar.select (IntOp.cmpi .slt (IntOp.addi (IntOp.muli a 8192#32) b) 0#32)
        (IntOp.addi (IntOp.addi (IntOp.muli a 8192#32) b) 67108864#32)
        (IntOp.addi (IntOp.muli a 8192#32) b)).toInt = a.toInt * 8192 + b.toInt := by
  have hA := toNat_of_toInt_nonneg ha0
  have hB := toNat_of_toInt_nonneg hb0

  have hf : (IntOp.addi (IntOp.muli a 8192#32) b).toNat = a.toNat * 8192 + b.toNat := by
    show (a * 8192#32 + b).toNat = _
    rw [BitVec.toNat_add, BitVec.toNat_mul]
    show (a.toNat * 8192 % 2 ^ 32 + b.toNat) % 2 ^ 32 = _
    omega

  have hfi : (IntOp.addi (IntOp.muli a 8192#32) b).toInt = a.toInt * 8192 + b.toInt := by
    rw [BitVec.toInt_eq_toNat_of_lt (by rw [hf]; omega), hf]
    push_cast; omega

  have hc : IntOp.cmpi .slt (IntOp.addi (IntOp.muli a 8192#32) b) 0#32 = 0#1 := by
    show BitVec.ofBool ((IntOp.addi (IntOp.muli a 8192#32) b).slt 0#32) = 0#1
    have : (IntOp.addi (IntOp.muli a 8192#32) b).slt 0#32 = false := by
      rw [BitVec.slt, hfi]
      simp only [BitVec.toInt_zero, decide_eq_false_iff_not, not_lt]
      omega
    rw [this]; rfl
  rw [hc, select_zero, hfi]

theorem scatter_start (j : S131072.Idx) (idx : IVec S131072x1 32) :
    scatter_S67108864_S131072x1_S131072_n_0_0_1.start j idx 0 = (idx (ix2 (j 0) 0)).toInt := by
  unfold ScatterDims.start
  rw [dif_pos (show (0 : Fin 1) ∈ scatter_S67108864_S131072x1_S131072_n_0_0_1.scatterDimsToOperandDims from List.mem_singleton.mpr rfl)]
  congr 2
  funext b
  refine Fin.ext ?_
  match b with
  | ⟨0, _⟩ => rfl
  | ⟨1, _⟩ => rfl

theorem scatter_window (j : S131072.Idx) : scatter_S67108864_S131072x1_S131072_n_0_0_1.window j 0 = 0 := by
  unfold ScatterDims.window
  rw [dif_neg (by decide)]

theorem scatter_resultIdx?_eq_some_iff (j : S131072.Idx) (idx : IVec S131072x1 32) (p : Fin 67108864) :
    scatter_S67108864_S131072x1_S131072_n_0_0_1.resultIdx? j idx = some (ix1 p) ↔ (idx (ix2 (j 0) 0)).toInt = (p.val : Int) := by
  have hs := scatter_start j idx
  have hw := scatter_window j
  have hp := p.isLt
  unfold ScatterDims.resultIdx?
  split_ifs with h
  ·
    have h0 := h 0
    rw [hs, hw] at h0
    constructor
    · intro he
      have := congrFun (Option.some.inj he) 0
      have hv : (scatter_S67108864_S131072x1_S131072_n_0_0_1.start j idx 0 + (scatter_S67108864_S131072x1_S131072_n_0_0_1.window j 0 : Int)).toNat = p.val := congrArg Fin.val this
      rw [hs, hw] at hv
      omega
    · intro he
      congr 1
      funext a
      obtain rfl : a = 0 := Subsingleton.elim _ _
      refine Fin.ext ?_
      show (scatter_S67108864_S131072x1_S131072_n_0_0_1.start j idx 0 + (scatter_S67108864_S131072x1_S131072_n_0_0_1.window j 0 : Int)).toNat = p.val
      rw [hs, hw]; omega
  ·
    constructor
    · intro he; cases he
    · intro he
      exfalso; apply h
      intro a
      obtain rfl : a = 0 := Subsingleton.elim _ _
      rw [hs, hw]
      show _ ∧ _ < ((67108864 : Nat) : Int)
      constructor <;> omega

def idxEquiv1 {n : Nat} : (⟨1, ![n]⟩ : Shape).Idx ≃ Fin n where
  toFun i := i 0
  invFun := ix1
  left_inv i := (eq_ix1 i).symm
  right_inv _ := rfl

/-- Scatter-add into zeros: position p ends at the sum of the updates whose index is p. -/
theorem scatterAdd_zeros_apply (idx : IVec S131072x1 32) (vals : FVec Ideal S131072 .f32) (p : Fin 67108864) :
    Host.scatterAdd (F := Ideal) scatter_S67108864_S131072x1_S131072_n_0_0_1
        (broadcastInDim S67108864 ![] bcast_S_S67108864 (constant (F := Ideal) S_ .f32 0x00000000#32)) idx vals (ix1 p)
      = ∑ u ∈ Finset.univ.filter (fun u : Fin 131072 => (idx (ix2 u 0)).toInt = (p.val : Int)), vals (ix1 u) := by
  show Ideal.hostScatterAdd scatter_S67108864_S131072x1_S131072_n_0_0_1 _ idx vals (ix1 p) = _
  unfold Ideal.hostScatterAdd
  have x0 : broadcastInDim S67108864 ![] bcast_S_S67108864 (constant (F := Ideal) S_ .f32 0x00000000#32) (ix1 p) = 0 :=
    Ideal.ofBits_zero_f32
  rw [x0, zero_add]

  refine Finset.sum_equiv idxEquiv1 (fun j => ?_) (fun j _ => ?_)
  · simp only [Finset.mem_filter, Finset.mem_univ, true_and]
    rw [scatter_resultIdx?_eq_some_iff]
    rfl
  · exact congrArg vals (eq_ix1 j)

def flatIdx (rows cols : IVec S131072 32) : IVec S131072x1 32 :=
  broadcastInDim S131072x1 ![0] bcast_S131072_S131072x1_0
    (select
      (cmpi CmpIPredicate.slt
        (addi (muli rows (broadcastInDim S131072 ![] bcast_S_S131072 (constantI S_ 32 8192#32))) cols)
        (broadcastInDim S131072 ![] bcast_S_S131072 (constantI S_ 32 0#32)))
      (addi
        (addi (muli rows (broadcastInDim S131072 ![] bcast_S_S131072 (constantI S_ 32 8192#32))) cols)
        (broadcastInDim S131072 ![] bcast_S_S131072 (constantI S_ 32 67108864#32)))
      (addi (muli rows (broadcastInDim S131072 ![] bcast_S_S131072 (constantI S_ 32 8192#32))) cols))

def denseOf (rows cols : IVec S131072 32) (vals : FVec Ideal S131072 .f32) : FVec Ideal S8192x8192 .bf16 :=
  truncf .bf16
    (shapeCast S8192x8192
      (Host.scatterAdd (F := Ideal) scatter_S67108864_S131072x1_S131072_n_0_0_1
        (broadcastInDim S67108864 ![] bcast_S_S67108864 (constant (F := Ideal) S_ .f32 0x00000000#32))
        (flatIdx rows cols) vals)
      shapeCasts_S67108864_S8192x8192)
    bitsLt_bf16_f32

theorem flatIdx_apply (rows cols : IVec S131072 32) (u : Fin 131072) :
    flatIdx rows cols (ix2 u 0)
      = Scalar.select (IntOp.cmpi .slt (IntOp.addi (IntOp.muli (rows (ix1 u)) 8192#32) (cols (ix1 u))) 0#32)
          (IntOp.addi (IntOp.addi (IntOp.muli (rows (ix1 u)) 8192#32) (cols (ix1 u))) 67108864#32)
          (IntOp.addi (IntOp.muli (rows (ix1 u)) 8192#32) (cols (ix1 u))) := by
  unfold flatIdx
  refine (broadcastInDim_apply ![0] bcast_S131072_S131072x1_0 _ (ix2 u 0) (ix1 u) (fun a => ?_)).trans ?_
  · match a with
    | ⟨0, _⟩ => rfl
  · rfl

/-- In range the flat position row · 8192 + column names the entry (row, column) and no other, so the host's dense weight is the list's matrix. -/
theorem denseOf_apply (rows cols : IVec S131072 32) (vals : FVec Ideal S131072 .f32)
    (h3 : Cert.Spec.InRange rows) (h4 : Cert.Spec.InRange cols) (r k : Fin 8192) :
    (denseOf rows cols vals : S8192x8192.Idx → EReal) (ix2 r k)
      = Cert.Spec.W (Cert.Spec.idxOf rows) (Cert.Spec.idxOf cols) (fun u => vals (ix1 u)) r k := by
  have hr := r.isLt
  have hk := k.isLt
  unfold denseOf
  rw [truncf_apply]
  refine (shapeCast_apply _ shapeCasts_S67108864_S8192x8192 (ix2 r k)
    (ix1 (⟨r.val * 8192 + k.val, by omega⟩ : Fin 67108864)) ?_).trans ?_
  · rw [Shape.rowMajor_val_one, Shape.rowMajor_val_two]
    rfl
  · rw [scatterAdd_zeros_apply]
    unfold Cert.Spec.W
    refine Finset.sum_congr (Finset.filter_congr fun u _ => ?_) (fun _ _ => rfl)
    rw [flatIdx_apply, flatWord_toInt _ _ (h3 u).1 (h3 u).2 (h4 u).1 (h4 u).2]
    have e3 := Cert.Spec.idxOf_val h3 u
    have e4 := Cert.Spec.idxOf_val h4 u
    have b3 := (h3 u)
    have b4 := (h4 u)
    rw [Fin.ext_iff, Fin.ext_iff]
    show _ = ((r.val * 8192 + k.val : Nat) : Int) ↔ _
    push_cast
    omega

variable (m : (ℓ : Loc nD τ sig) → Buf (Elt Ideal) ℓ) (c : Dev nD)

theorem V1_main_v12_apply (h3 : Cert.Spec.InRange (m ((c.tc : Thread nD τ).loc main_arg3))) (h4 : Cert.Spec.InRange (m ((c.tc : Thread nD τ).loc main_arg4))) (r k : Fin 8192) :
      (V1 (F := Ideal) m c main_v12 : S8192x8192.Idx → EReal) (ix2 r k)
        = Cert.Spec.W (Cert.Spec.idxOf (m ((c.tc : Thread nD τ).loc main_arg3))) (Cert.Spec.idxOf (m ((c.tc : Thread nD τ).loc main_arg4))) (fun u => m ((c.tc : Thread nD τ).loc main_arg1) (ix1 u)) r k := by
  have e : (V1 (F := Ideal) m c main_v12 : S8192x8192.Idx → EReal)
      = denseOf (m ((c.tc : Thread nD τ).loc main_arg3)) (m ((c.tc : Thread nD τ).loc main_arg4)) (m ((c.tc : Thread nD τ).loc main_arg1)) := by
    dsimp only [V1, V0, hostOps0]; after_results; rfl
  rw [e]
  exact denseOf_apply _ _ _ h3 h4 r k

theorem V1_main_v13_apply (k : Fin 8192) :
    (V1 (F := Ideal) m c main_v13 : S1x8192.Idx → EReal) (ix2 0 k) = m ((c.tc : Thread nD τ).loc main_arg2) (ix1 k) := by
  have e : (V1 (F := Ideal) m c main_v13 : S1x8192.Idx → EReal)
      = shapeCast S1x8192 (m ((c.tc : Thread nD τ).loc main_arg2) : FVec Ideal S8192 .f32) shapeCasts_S8192_S1x8192 := by
    dsimp only [V1, V0, hostOps0]; after_results; rfl
  rw [e]
  refine shapeCast_apply _ shapeCasts_S8192_S1x8192 (ix2 0 k) (ix1 k) ?_
  rw [Shape.rowMajor_val_two, Shape.rowMajor_val_one]
  show k.val = 0 * 8192 + k.val
  omega

theorem V1_main_v14_apply (b : Fin 1024) (j : Fin 8192) :
    (V1 (F := Ideal) m c main_v14 : S1024x8192.Idx → EReal) (ix2 b j) = m ((c.tc : Thread nD τ).loc main_arg0) (ix2 b j) := by
  have e : (V1 (F := Ideal) m c main_v14 : S1024x8192.Idx → EReal)
      = (truncf .bf16 (m ((c.tc : Thread nD τ).loc main_arg0) : FVec Ideal S1024x8192 .f32) bitsLt_bf16_f32 : FVec Ideal S1024x8192 .bf16) := by
    dsimp only [V1, V0, hostOps0]; after_results
  rw [e]; rfl

end Cert.KernelIdeal.HostValue

end
-- ==== Proof.KI.KernelValue.lean ====
import proofs.«427775_j1245540516174_2_alg».proof.Proof.KI.Assembly
import proofs.«427775_j1245540516174_2_alg».proof.Proof.KI.R0Value
import proofs.«427775_j1245540516174_2_alg».proof.Proof.KI.R1Value
import proofs.«427775_j1245540516174_2_alg».proof.Proof.KI.R2Value
import proofs.«427775_j1245540516174_2_alg».proof.Proof.KernelHost
import proofs.«427775_j1245540516174_2_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (c : Dev nD)

/-- A call does not change the arrays it only reads. -/
theorem X2_in (w : Fin cfg0.W) (hw : (cfg0.win w).isOut = false) :
    X2 (F := Ideal) m c (Pipeline.arrRef spec0 w) = X1 (F := Ideal) m c (Pipeline.arrRef spec0 w) :=
  (W2_arr m c w).trans (((dat0 (X1 m) c).arrAt_in w hw _).trans (A_eq0 (X1 m) c w))
theorem X3_in (w : Fin cfg1.W) (hw : (cfg1.win w).isOut = false) :
    X3 (F := Ideal) m c (Pipeline.arrRef spec1 w) = X2 (F := Ideal) m c (Pipeline.arrRef spec1 w) :=
  (W3_arr m c w).trans (((dat1 (X2 m) c).arrAt_in w hw _).trans (A_eq1 (X2 m) c w))

abbrev xIn : Fin 1024 → Fin 8192 → EReal := fun p j => m ((c.tc : Thread nD τ).loc main_arg0) (ix2 p j)
abbrev vals : Fin 131072 → EReal := fun u => m ((c.tc : Thread nD τ).loc main_arg1) (ix1 u)
abbrev biasIn : Fin 8192 → EReal := fun k => m ((c.tc : Thread nD τ).loc main_arg2) (ix1 k)
abbrev rowsIn : Fin 131072 → Fin 8192 := Cert.Spec.idxOf (m ((c.tc : Thread nD τ).loc main_arg3))
abbrev colsIn : Fin 131072 → Fin 8192 := Cert.Spec.idxOf (m ((c.tc : Thread nD τ).loc main_arg4))

variable (h3 : Cert.Spec.InRange (m ((c.tc : Thread nD τ).loc main_arg3))) (h4 : Cert.Spec.InRange (m ((c.tc : Thread nD τ).loc main_arg4)))

include h3 h4 in

/-- The weight every call reads is the coordinate list's dense matrix. -/
theorem weight1 : (fun j k => (X1 (F := Ideal) m c (Pipeline.arrRef spec0 1) : S8192x8192.Idx → EReal) (ix2 j k))
    = Cert.Spec.W (rowsIn m c) (colsIn m c) (vals m c) := by
  funext j k; exact Cert.KernelIdeal.HostValue.V1_main_v12_apply m c h3 h4 j k
theorem bias1 : (fun k => (X1 (F := Ideal) m c (Pipeline.arrRef spec0 2) : S1x8192.Idx → EReal) (ix2 0 k)) = biasIn m c := by
  funext k; exact Cert.KernelIdeal.HostValue.V1_main_v13_apply m c k
theorem input1 : (fun p j => (X1 (F := Ideal) m c (Pipeline.arrRef spec0 0) : S1024x8192.Idx → EReal) (ix2 p j)) = xIn m c := by
  funext p j; exact Cert.KernelIdeal.HostValue.V1_main_v14_apply m c p j

include h3 h4 in

theorem out1 (b : Fin 1024) (n : Fin 8192) :
    (X2 (F := Ideal) m c (Pipeline.arrRef spec0 3) : S1024x8192.Idx → EReal) (ix2 b n)
      = Cert.Spec.stepDense (Cert.Spec.W (rowsIn m c) (colsIn m c) (vals m c)) (biasIn m c) (xIn m c) b n := by
  rw [← hF0 m c 3, arrAt0_3_apply (X1 m) c b n, weight1 m c h3 h4, bias1 m c, input1 m c]

include h3 h4 in

theorem out2 (b : Fin 1024) (n : Fin 8192) :
    (X3 (F := Ideal) m c (Pipeline.arrRef spec1 3) : S1024x8192.Idx → EReal) (ix2 b n)
      = Cert.Spec.stepDense (Cert.Spec.W (rowsIn m c) (colsIn m c) (vals m c)) (biasIn m c)
          (Cert.Spec.stepDense (Cert.Spec.W (rowsIn m c) (colsIn m c) (vals m c)) (biasIn m c) (xIn m c)) b n := by
  rw [← hF1 m c 3, arrAt1_3_apply (X2 m) c b n]
  have hw : (fun j k => (X2 (F := Ideal) m c (Pipeline.arrRef spec1 1) : S8192x8192.Idx → EReal) (ix2 j k))
      = Cert.Spec.W (rowsIn m c) (colsIn m c) (vals m c) := by
    rw [← weight1 m c h3 h4]; funext j k; exact congrFun (X2_in m c 1 rfl) (ix2 j k)
  have hb : (fun k => (X2 (F := Ideal) m c (Pipeline.arrRef spec1 2) : S1x8192.Idx → EReal) (ix2 0 k)) = biasIn m c := by
    rw [← bias1 m c]; funext k; exact congrFun (X2_in m c 2 rfl) (ix2 0 k)
  have hx : (fun p j => (X2 (F := Ideal) m c (Pipeline.arrRef spec1 0) : S1024x8192.Idx → EReal) (ix2 p j))
      = Cert.Spec.stepDense (Cert.Spec.W (rowsIn m c) (colsIn m c) (vals m c)) (biasIn m c) (xIn m c) := by
    funext p j; exact out1 m c h3 h4 p j
  rw [hw, hb, hx]

include h3 h4 in

/-- Each call leaves one dense step of what it read, and all three read the same weight and bias: the result is three dense steps. -/
theorem result_apply (b : Fin 1024) (n : Fin 8192) :
    (result (F := Ideal) m c : S1024x8192.Idx → EReal) (ix2 b n)
      = Cert.Spec.dense3 (Cert.Spec.W (rowsIn m c) (colsIn m c) (vals m c)) (biasIn m c) (xIn m c) b n := by
  show (X4 (F := Ideal) m c (Pipeline.arrRef spec2 3) : S1024x8192.Idx → EReal) (ix2 b n) = _
  rw [← hF2 m c 3, arrAt2_3_apply (X3 m) c b n]
  have hw : (fun j k => (X3 (F := Ideal) m c (Pipeline.arrRef spec2 1) : S8192x8192.Idx → EReal) (ix2 j k))
      = Cert.Spec.W (rowsIn m c) (colsIn m c) (vals m c) := by
    rw [← weight1 m c h3 h4]; funext j k
    exact (congrFun (X3_in m c 1 rfl) (ix2 j k)).trans (congrFun (X2_in m c 1 rfl) (ix2 j k))
  have hb : (fun k => (X3 (F := Ideal) m c (Pipeline.arrRef spec2 2) : S1x8192.Idx → EReal) (ix2 0 k)) = biasIn m c := by
    rw [← bias1 m c]; funext k
    exact (congrFun (X3_in m c 2 rfl) (ix2 0 k)).trans (congrFun (X2_in m c 2 rfl) (ix2 0 k))
  have hx : (fun p j => (X3 (F := Ideal) m c (Pipeline.arrRef spec2 0) : S1024x8192.Idx → EReal) (ix2 p j))
      = Cert.Spec.stepDense (Cert.Spec.W (rowsIn m c) (colsIn m c) (vals m c)) (biasIn m c)
          (Cert.Spec.stepDense (Cert.Spec.W (rowsIn m c) (colsIn m c) (vals m c)) (biasIn m c) (xIn m c)) := by
    funext p j; exact out2 m c h3 h4 p j
  rw [hw, hb, hx]; rfl

end Cert.KernelIdeal.Fr

end
-- ==== Proof.RefValue.lean ====
import proofs.«427775_j1245540516174_2_alg».proof.Proof.Gen.ReferenceIdeal.Read
import proofs.«427775_j1245540516174_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen

local notation "gd" => gather_S8192x1024_S131072x1_S131072x1024_1_0_n_n_0_1_11024
local notation "sd" => scatter_S8192x1024_S131072x1_S131072x1024_1_0_0_1

/-- The gather reads the row its index names, clamped to the last row. -/
theorem gather_apply {α : Type} (x : S8192x1024.Idx → α) (idx : IVec S131072x1 32) (u : Fin 131072) (p : Fin 1024) :
    Host.gather gd x idx (ix2 u p)
      = x (ix2 (⟨min (idx (ix2 u (0 : Fin 1))).toInt.toNat 8191, by omega⟩ : Fin 8192) p) := by
  unfold Host.gather
  congr 1
  funext a
  match a with
  | ⟨0, _⟩ =>
    apply Fin.ext
    show (gd).start (ix2 u p) idx 0 + (gd).batchCoord (ix2 u p) 0 + (gd).offCoord (ix2 u p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd).startIndexMap from List.mem_singleton.mpr rfl)]
    have hsi : (gd).siIdx (ix2 u p) ⟨List.idxOf (0 : Fin 2) (gd).startIndexMap,
        List.idxOf_lt_length_iff.2 (List.mem_singleton.mpr rfl)⟩ = ix2 u (0 : Fin 1) := by
      funext b; refine Fin.ext ?_
      match b with
      | ⟨0, _⟩ => rfl
      | ⟨1, _⟩ => rfl
    rw [hsi]
    rfl
  | ⟨1, _⟩ =>
    apply Fin.ext
    show (gd).start (ix2 u p) idx 1 + (gd).batchCoord (ix2 u p) 1 + (gd).offCoord (ix2 u p) 1 = p.val
    rw [GatherDims.batchCoord_eq_zero _ _ _ List.not_mem_nil]
    have hs : (gd).start (ix2 u p) idx 1 = 0 := by
      unfold GatherDims.start
      rw [dif_neg (show (1 : Fin 2) ∉ (gd).startIndexMap from by decide)]
    have hk : (1 : Fin 2) ∈ (gd).sKept := by decide
    rw [hs]
    unfold GatherDims.offCoord
    rw [dif_pos hk]
    simp only [Nat.zero_add, Nat.add_zero]
    rfl

theorem resultIdx_apply (idx : IVec S131072x1 32) (u : Fin 131072) (p : Fin 1024)
    (h0 : 0 ≤ (idx (ix2 u (0 : Fin 1))).toInt) (h1 : (idx (ix2 u (0 : Fin 1))).toInt < 8192) :
    (sd).resultIdx? (ix2 u p) idx
      = some (ix2 (⟨(idx (ix2 u (0 : Fin 1))).toInt.toNat, by omega⟩ : Fin 8192) p) := by
  have hsi : (sd).siIdx (ix2 u p) ⟨List.idxOf (0 : Fin 2) (sd).scatterDimsToOperandDims,
      List.idxOf_lt_length_iff.2 (List.mem_singleton.mpr rfl)⟩ = ix2 u (0 : Fin 1) := by
    funext b; refine Fin.ext ?_
    match b with
    | ⟨0, _⟩ => rfl
    | ⟨1, _⟩ => rfl
  have hs0 : (sd).start (ix2 u p) idx 0 = (idx (ix2 u (0 : Fin 1))).toInt := by
    unfold ScatterDims.start
    rw [dif_pos (show (0 : Fin 2) ∈ (sd).scatterDimsToOperandDims from List.mem_singleton.mpr rfl), hsi]
  have hs1 : (sd).start (ix2 u p) idx 1 = 0 := by
    unfold ScatterDims.start
    rw [dif_neg (show (1 : Fin 2) ∉ (sd).scatterDimsToOperandDims from by decide)]
  have hw0 : (sd).window (ix2 u p) 0 = 0 := by
    unfold ScatterDims.window
    rw [dif_neg (show (0 : Fin 2) ∉ (sd).sKept from by decide)]
  have hw1 : (sd).window (ix2 u p) 1 = p.val := by
    unfold ScatterDims.window
    rw [dif_pos (show (1 : Fin 2) ∈ (sd).sKept from by decide)]
    rfl
  unfold ScatterDims.resultIdx?
  have hall : ∀ a, 0 ≤ (sd).start (ix2 u p) idx a + (sd).window (ix2 u p) a
      ∧ (sd).start (ix2 u p) idx a + (sd).window (ix2 u p) a < S8192x1024.size a := by
    intro a
    match a with
    | ⟨0, _⟩ =>
      show 0 ≤ (sd).start (ix2 u p) idx 0 + (sd).window (ix2 u p) 0
        ∧ (sd).start (ix2 u p) idx 0 + (sd).window (ix2 u p) 0 < ((8192 : Nat) : Int)
      rw [hs0, hw0]; omega
    | ⟨1, _⟩ =>
      show 0 ≤ (sd).start (ix2 u p) idx 1 + (sd).window (ix2 u p) 1
        ∧ (sd).start (ix2 u p) idx 1 + (sd).window (ix2 u p) 1 < ((1024 : Nat) : Int)
      rw [hs1, hw1]; have := p.isLt; omega
  rw [dif_pos hall]
  congr 1
  funext a
  match a with
  | ⟨0, _⟩ =>
    apply Fin.ext
    show ((sd).start (ix2 u p) idx 0 + (sd).window (ix2 u p) 0).toNat = (idx (ix2 u (0 : Fin 1))).toInt.toNat
    rw [hs0, hw0]; simp
  | ⟨1, _⟩ =>
    apply Fin.ext
    show ((sd).start (ix2 u p) idx 1 + (sd).window (ix2 u p) 1).toNat = p.val
    rw [hs1, hw1]; simp

theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- The segment sum: row n collects the updates whose segment index is n. -/
theorem scatterAdd_apply (x : FVec Ideal S8192x1024 .f32) (idx : IVec S131072x1 32) (upd : FVec Ideal S131072x1024 .f32)
    (c : Fin 131072 → Fin 8192) (hc : ∀ u, (idx (ix2 u (0 : Fin 1))).toInt = ((c u).val : Int)) (n : Fin 8192) (p : Fin 1024) :
    Host.scatterAdd sd x idx upd (ix2 n p)
      = x (ix2 n p) + ∑ u ∈ Finset.univ.filter (fun u => c u = n), upd (ix2 u p) := by
  show Ideal.hostScatterAdd sd x idx upd (ix2 n p) = _
  unfold Ideal.hostScatterAdd
  beta_reduce
  refine congrArg (fun t => x (ix2 n p) + t) ?_
  have hr : ∀ u q, (sd).resultIdx? (ix2 u q) idx = some (ix2 (c u) q) := by
    intro u q
    have hlt := (c u).isLt
    rw [resultIdx_apply idx u q (by rw [hc]; omega) (by rw [hc]; omega)]
    congr 2
    apply Fin.ext
    show (idx (ix2 u (0 : Fin 1))).toInt.toNat = (c u).val
    rw [hc]; simp
  rw [Finset.sum_filter, sum_idx2, Finset.sum_filter]
  refine Finset.sum_congr rfl fun u _ => ?_
  simp only [hr, Option.some.injEq, ix2_inj]
  by_cases hu : c u = n
  · simp [hu]
  · simp [hu]

theorem rows_apply (x3 : IVec S131072 32) (i : S131072.Idx) (h : 0 ≤ (x3 i).toInt) :
    select (cmpi .slt x3 (broadcastInDim S131072 ![] bcast_S_S131072 (constantI S_ 32 0#32)))
      (addi x3 (broadcastInDim S131072 ![] bcast_S_S131072 (constantI S_ 32 8192#32))) x3 i = x3 i := by
  have hc : IntOp.cmpi .slt (x3 i) 0#32 = 0#1 := by
    unfold IntOp.cmpi
    simp only [BitVec.slt]
    rw [decide_eq_false (by simpa using h)]
    rfl
  show Scalar.select (IntOp.cmpi .slt (x3 i) 0#32) _ (x3 i) = x3 i
  rw [hc]; exact select_zero _ _

theorem bcast_col_apply {α : Type} (v : S131072.Idx → α) (u : Fin 131072) :
    broadcastInDim S131072x1 ![0] bcast_S131072_S131072x1_0 v (ix2 u (0 : Fin 1)) = v (ix1 u) :=
  broadcastInDim_apply _ bcast_S131072_S131072x1_0 v _ (ix1 u) (fun a => match a with
    | ⟨0, _⟩ => by show u.val = if (131072 : Nat) = 1 then 0 else u.val; rw [if_neg (by decide)])

theorem bcast_vals_apply {α : Type} (v : S131072.Idx → α) (u : Fin 131072) (p : Fin 1024) :
    broadcastInDim S131072x1024 ![0, 1] bcast_S131072x1_S131072x1024_0_1
      (broadcastInDim S131072x1 ![0] bcast_S131072_S131072x1_0 v) (ix2 u p) = v (ix1 u) := by
  rw [broadcastInDim_apply _ bcast_S131072x1_S131072x1024_0_1 _ (ix2 u p) (ix2 u (0 : Fin 1)) (fun a => match a with
    | ⟨0, _⟩ => by show u.val = if (131072 : Nat) = 1 then 0 else u.val; rw [if_neg (by decide)]
    | ⟨1, _⟩ => by show 0 = if (1 : Nat) = 1 then 0 else p.val; rw [if_pos rfl])]
  exact bcast_col_apply v u

theorem bcast_bias_apply {α : Type} (v : S8192.Idx → α) (b : Fin 1024) (n : Fin 8192) :
    broadcastInDim S1024x8192 ![0, 1] bcast_S1x8192_S1024x8192_0_1
      (broadcastInDim S1x8192 ![1] bcast_S8192_S1x8192_1 v) (ix2 b n) = v (ix1 n) := by
  rw [broadcastInDim_apply _ bcast_S1x8192_S1024x8192_0_1 _ (ix2 b n) (ix2 (0 : Fin 1) n) (fun a => match a with
    | ⟨0, _⟩ => by show 0 = if (1 : Nat) = 1 then 0 else b.val; rw [if_pos rfl]
    | ⟨1, _⟩ => by show n.val = if (8192 : Nat) = 1 then 0 else n.val; rw [if_neg (by decide)])]
  exact broadcastInDim_apply _ bcast_S8192_S1x8192_1 v _ (ix1 n) (fun a => match a with
    | ⟨0, _⟩ => by show n.val = if (8192 : Nat) = 1 then 0 else n.val; rw [if_neg (by decide)])

theorem zeros_acc_apply (i : S8192x1024.Idx) :
    broadcastInDim S8192x1024 ![] bcast_S_S8192x1024 (constant (F := Ideal) S_ .f32 0x00000000#32) i = 0 := by
  rw [broadcastInDim_apply _ bcast_S_S8192x1024 _ i ix0 (fun a => a.elim0), constant_apply, Ideal.ofBits_zero_f32]

theorem zeros_out_apply (i : S1024x8192.Idx) :
    broadcastInDim S1024x8192 ![] bcast_S_S1024x8192 (constant (F := Ideal) S_ .f32 0x00000000#32) i = 0 := by
  rw [broadcastInDim_apply _ bcast_S_S1024x8192 _ i ix0 (fun a => a.elim0), constant_apply, Ideal.ofBits_zero_f32]

theorem tr_in_apply {α : Type} (y : S1024x8192.Idx → α) (r : Fin 8192) (p : Fin 1024) :
    transpose S8192x1024 [1, 0] y transposes_S1024x8192_S8192x1024_1_0 (ix2 r p) = y (ix2 p r) :=
  transpose_apply [1, 0] y transposes_S1024x8192_S8192x1024_1_0 (ix2 r p) (ix2 p r) (fun b => match b with
    | ⟨0, _⟩ => rfl
    | ⟨1, _⟩ => rfl)

theorem tr_out_apply {α : Type} (z : S8192x1024.Idx → α) (b : Fin 1024) (n : Fin 8192) :
    transpose S1024x8192 [1, 0] z transposes_S8192x1024_S1024x8192_1_0 (ix2 b n) = z (ix2 n b) :=
  transpose_apply [1, 0] z transposes_S8192x1024_S1024x8192_1_0 (ix2 b n) (ix2 n b) (fun a => match a with
    | ⟨0, _⟩ => rfl
    | ⟨1, _⟩ => rfl)

def refStep (y : FVec Ideal S1024x8192 .f32) (x1 : FVec Ideal S131072 .f32) (x2 : FVec Ideal S8192 .f32)
    (x3 x4 : IVec S131072 32) : FVec Ideal S1024x8192 .f32 :=
  maximumf (addf (transpose S1024x8192 [1, 0] (Host.scatterAdd scatter_S8192x1024_S131072x1_S131072x1024_1_0_0_1 (broadcastInDim S8192x1024 ![] bcast_S_S8192x1024 (constant S_ .f32 0x00000000#32)) (broadcastInDim S131072x1 ![0] bcast_S131072_S131072x1_0 (x4)) (mulf (Host.gather gather_S8192x1024_S131072x1_S131072x1024_1_0_n_n_0_1_11024 (transpose S8192x1024 [1, 0] (y) transposes_S1024x8192_S8192x1024_1_0) (broadcastInDim S131072x1 ![0] bcast_S131072_S131072x1_0 (select (cmpi .slt (x3) (broadcastInDim S131072 ![] bcast_S_S131072 (constantI S_ 32 0#32))) (addi (x3) (broadcastInDim S131072 ![] bcast_S_S131072 (constantI S_ 32 8192#32))) (x3)))) (broadcastInDim S131072x1024 ![0, 1] bcast_S131072x1_S131072x1024_0_1 (broadcastInDim S131072x1 ![0] bcast_S131072_S131072x1_0 (x1))))) transposes_S8192x1024_S1024x8192_1_0) (broadcastInDim S1024x8192 ![0, 1] bcast_S1x8192_S1024x8192_0_1 (broadcastInDim S1x8192 ![1] bcast_S8192_S1x8192_1 (x2)))) (broadcastInDim S1024x8192 ![] bcast_S_S1024x8192 (constant S_ .f32 0x00000000#32))

theorem val_main_v56_eq_refStep (x0 : FVec Ideal S1024x8192 .f32) (x1 : FVec Ideal S131072 .f32) (x2 : FVec Ideal S8192 .f32)
    (x3 x4 : IVec S131072 32) :
    Cert.ReferenceIdeal.Read.val_main_v56 (F := Ideal) x0 x1 x2 x3 x4
      = refStep (refStep (refStep x0 x1 x2 x3 x4) x1 x2 x3 x4) x1 x2 x3 x4 := by
  unfold refStep
  exact (Cert.ReferenceIdeal.Read.val_main_v56_eq (F := Ideal) x0 x1 x2 x3 x4).symm

/-- With indices in range the clamp and the negative wrap do nothing, and one reference step is the sparse step. -/
theorem refStep_apply (y : FVec Ideal S1024x8192 .f32) (x1 : FVec Ideal S131072 .f32) (x2 : FVec Ideal S8192 .f32)
    (x3 x4 : IVec S131072 32) (h3 : Cert.Spec.InRange x3) (h4 : Cert.Spec.InRange x4) (b : Fin 1024) (n : Fin 8192) :
    refStep y x1 x2 x3 x4 (ix2 b n)
      = Cert.Spec.stepSparse (Cert.Spec.idxOf x3) (Cert.Spec.idxOf x4) (fun u => x1 (ix1 u)) (fun k => x2 (ix1 k))
          (fun p j => y (ix2 p j)) b n := by
  unfold refStep Cert.Spec.stepSparse
  rw [maximumf_apply, addf_apply, zeros_out_apply, bcast_bias_apply, tr_out_apply]
  rw [scatterAdd_apply _ _ _ (Cert.Spec.idxOf x4)
    (fun u => by rw [bcast_col_apply]; exact (Cert.Spec.idxOf_val h4 u).symm) n b]
  rw [zeros_acc_apply, zero_add]
  refine congrArg (fun t => max (t + x2 (ix1 n)) 0) ?_
  refine Finset.sum_congr rfl fun u _ => ?_
  rw [mulf_apply, bcast_vals_apply, gather_apply, tr_in_apply]
  refine congrArg (fun r => y (ix2 b r) * x1 (ix1 u)) (Fin.ext ?_)
  show min (BitVec.toInt _).toNat 8191 = (Cert.Spec.idxOf x3 u).val
  rw [bcast_col_apply, rows_apply x3 (ix1 u) (h3 u).1]
  have h := Cert.Spec.idxOf_val h3 u
  have := h3 u
  omega

/-- With indices in range the reference's result is three sparse steps. -/
theorem val_main_v56_spec (x0 : FVec Ideal S1024x8192 .f32) (x1 : FVec Ideal S131072 .f32) (x2 : FVec Ideal S8192 .f32) (x3 x4 : IVec S131072 32)
    (h3 : Cert.Spec.InRange x3) (h4 : Cert.Spec.InRange x4) (b : Fin 1024) (n : Fin 8192) :
    Cert.ReferenceIdeal.Read.val_main_v56 (F := Ideal) x0 x1 x2 x3 x4 (ix2 b n)
      = Cert.Spec.sparse3 (Cert.Spec.idxOf x3) (Cert.Spec.idxOf x4) (fun u => x1 (ix1 u)) (fun k => x2 (ix1 k)) (fun p j => x0 (ix2 p j)) b n := by
  have e1 : (fun p j => refStep x0 x1 x2 x3 x4 (ix2 p j))
      = Cert.Spec.stepSparse (Cert.Spec.idxOf x3) (Cert.Spec.idxOf x4) (fun u => x1 (ix1 u)) (fun k => x2 (ix1 k))
          (fun p j => x0 (ix2 p j)) := by
    funext p j
    exact refStep_apply x0 x1 x2 x3 x4 h3 h4 p j
  have e2 : (fun p j => refStep (refStep x0 x1 x2 x3 x4) x1 x2 x3 x4 (ix2 p j))
      = Cert.Spec.stepSparse (Cert.Spec.idxOf x3) (Cert.Spec.idxOf x4) (fun u => x1 (ix1 u)) (fun k => x2 (ix1 k))
          (Cert.Spec.stepSparse (Cert.Spec.idxOf x3) (Cert.Spec.idxOf x4) (fun u => x1 (ix1 u)) (fun k => x2 (ix1 k))
            (fun p j => x0 (ix2 p j))) := by
    funext p j
    rw [refStep_apply _ x1 x2 x3 x4 h3 h4 p j, e1]
  rw [val_main_v56_eq_refStep, refStep_apply _ x1 x2 x3 x4 h3 h4 b n, e2]
  rfl

end Cert.ReferenceIdeal.RefValue

end
-- ==== Proof.PreFacts.lean ====
import proofs.«427775_j1245540516174_2_alg».proof.Pre_finite_inputs
import proofs.«427775_j1245540516174_2_alg».proof.Proof.Gen.Pre_finite_inputs
import proofs.«427775_j1245540516174_2_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx

instance : Subsingleton Cert.Pre_finite_inputs.S_.Idx := ⟨fun a b => funext fun d => d.elim0⟩

theorem isReal_of_abs_lt_top (x : Ideal .f32)
    (h : FloatOps.cmpf (F := Ideal) .olt (FloatOps.hostAbsf x) (FloatOps.ofBits .f32 0x7F800000#32) = 1#1) :
    Cert.Spec.IsReal x := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h
  induction x using EReal.rec with
  | bot => simp at h
  | coe r => exact ⟨r, rfl⟩
  | top => simp at h

theorem nonneg_of_sge (v : BitVec 32) (h : IntOp.cmpi .sge v 0#32 = 1#1) : 0 ≤ v.toInt := by
  simp only [IntOp.cmpi, StableHlo.Predicate.ofBool_eq_one_iff, BitVec.sle, decide_eq_true_eq] at h
  simpa using h

theorem lt_of_slt (v : BitVec 32) (h : IntOp.cmpi .slt v 8192#32 = 1#1) : v.toInt < 8192 := by
  simp only [IntOp.cmpi, StableHlo.Predicate.ofBool_eq_one_iff, BitVec.slt, decide_eq_true_eq] at h
  have e : (8192#32 : BitVec 32).toInt = 8192 := by decide
  rw [e] at h
  exact h

/-- The precondition read off: every float entry is a real number, every row and column word lies in [0, 8192). -/
theorem of_pre [hP : Cert.Pre_finite_inputs.Facts]
    (x0 : FVec Ideal Cert.Pre_finite_inputs.S1024x8192 .f32) (x1 : FVec Ideal Cert.Pre_finite_inputs.S131072 .f32) (x2 : FVec Ideal Cert.Pre_finite_inputs.S8192 .f32)
    (x3 x4 : IVec Cert.Pre_finite_inputs.S131072 32)
    (h : Cert.Pre_finite_inputs.fn (F := Ideal) x0 x1 x2 x3 x4 = fun _ => 1#1) :
    (∀ i, Cert.Spec.IsReal (x0 i)) ∧ (∀ i, Cert.Spec.IsReal (x1 i)) ∧ (∀ i, Cert.Spec.IsReal (x2 i)) ∧ Cert.Spec.InRange x3 ∧ Cert.Spec.InRange x4 := by
  have h0 := congrFun h ValueIdx.ix0
  dsimp only [Cert.Pre_finite_inputs.fn, Cert.Pre_finite_inputs.fn_part1] at h0
  obtain ⟨h0, hc4⟩ := IntOp.andi_eq_one.1 h0
  obtain ⟨h0, hc4'⟩ := IntOp.andi_eq_one.1 h0
  obtain ⟨h0, hc3⟩ := IntOp.andi_eq_one.1 h0
  obtain ⟨h0, hc3'⟩ := IntOp.andi_eq_one.1 h0
  obtain ⟨h0, hx2⟩ := IntOp.andi_eq_one.1 h0
  obtain ⟨hx0, hx1⟩ := IntOp.andi_eq_one.1 h0
  refine ⟨fun i => ?_, fun i => ?_, fun i => ?_, fun u => ⟨?_, ?_⟩, fun u => ⟨?_, ?_⟩⟩
  · exact isReal_of_abs_lt_top (x0 i) (Host.reduce_andi_all _ _ _ _ ix0 hx0 i)
  · exact isReal_of_abs_lt_top (x1 i) (Host.reduce_andi_all _ _ _ _ ix0 hx1 i)
  · exact isReal_of_abs_lt_top (x2 i) (Host.reduce_andi_all _ _ _ _ ix0 hx2 i)
  · exact nonneg_of_sge (x3 (ix1 u)) (Host.reduce_andi_all _ _ _ _ ix0 hc3' (ix1 u))
  · exact lt_of_slt (x3 (ix1 u)) (Host.reduce_andi_all _ _ _ _ ix0 hc3 (ix1 u))
  · exact nonneg_of_sge (x4 (ix1 u)) (Host.reduce_andi_all _ _ _ _ ix0 hc4' (ix1 u))
  · exact lt_of_slt (x4 (ix1 u)) (Host.reduce_andi_all _ _ _ _ ix0 hc4 (ix1 u))

end Cert.PreFacts

end
-- ==== Proof.lean ====
import proofs.«427775_j1245540516174_2_alg».proof.Defs
import proofs.«427775_j1245540516174_2_alg».proof.Proof.Gen.Kernel
import proofs.«427775_j1245540516174_2_alg».proof.Proof.Gen.KernelIdeal
import proofs.«427775_j1245540516174_2_alg».proof.Proof.Gen.ReferenceIdeal
import proofs.«427775_j1245540516174_2_alg».proof.Proof.Gen.ReferenceIdeal.Run
import proofs.«427775_j1245540516174_2_alg».proof.Proof.Gen.ReferenceIdeal.Read
import proofs.«427775_j1245540516174_2_alg».proof.Proof.Gen.Pre_finite_inputs
import proofs.«427775_j1245540516174_2_alg».proof.Proof.KI.Assembly
import proofs.«427775_j1245540516174_2_alg».proof.Proof.KI.KernelValue
import proofs.«427775_j1245540516174_2_alg».proof.Proof.RefValue
import proofs.«427775_j1245540516174_2_alg».proof.Proof.PreFacts
import proofs.«427775_j1245540516174_2_alg».proof.Proof.Spec
import Idealize.ShloMosaic.Adequacy
import Idealize.ShloMosaic.Init

noncomputable section

namespace Cert.Proof

open Idealize.ShloMosaic Idealize.ShloMosaic.ValueIdx Idealize.ShloMosaic.Tactic Idealize.SL.Sem

/-- The idealization rewrote nothing: the word-level program is its idealization's text, term for term. -/
theorem defs_eq : Cert.Kernel.defs (F := Bits) = Cert.KernelIdeal.defs (F := Bits) := by sl_kernel_rfl
theorem main_eq : Cert.Kernel.main (F := Bits) = Cert.KernelIdeal.main (F := Bits) := by sl_kernel_rfl

/-- So one run, proved at any float instance, serves both programs: read at words it is the word-level program's. -/
theorem frame_k : Cert.frame_Kernel := fun m ρ _ => by
  rw [defs_eq, main_eq]
  exact (θ_run Cert.KernelIdeal.defs _ _).mono (fun _ h c => (h c).2) (Cert.KernelIdeal.Fr.run_all (F := Bits) m ρ)

theorem frame_ki : Cert.frame_KernelIdeal := fun m ρ _ =>
  (θ_run Cert.KernelIdeal.defs _ _).mono (fun _ h c => (h c).2) (Cert.KernelIdeal.Fr.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Three dense steps through the list's matrix equal three sparse steps through the list, on finite inputs with indices in range. -/
theorem algebraic : Cert.algebraic_KernelIdeal_ReferenceIdeal := by
  intro m ρ m' ρ' hpre hagree
  refine ⟨fun c => Cert.KernelIdeal.Fr.result (F := Ideal) m c, Cert.KernelIdeal.Fr.run_all (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hv, hb, h3, h4⟩ := Cert.PreFacts.of_pre _ _ _ _ _ (hpre c)
  rw [(hagree c).1, (hagree c).2.1, (hagree c).2.2.1, (hagree c).2.2.2.1, (hagree c).2.2.2.2]
  rw [Cert.ReferenceIdeal.Read.val_main_v56_eq]
  funext i
  obtain ⟨b, n, rfl⟩ : ∃ (b : Fin 1024) (n : Fin 8192), i = ix2 b n := ⟨i 0, i 1, eq_ix2 i⟩
  rw [Cert.ReferenceIdeal.RefValue.val_main_v56_spec _ _ _ _ _ h3 h4 b n]
  refine Eq.trans ?_ (Cert.KernelIdeal.Fr.result_apply m c h3 h4 b n).symm
  exact (congrFun (congrFun (Cert.Spec.dense3_eq_sparse3 _ _ _ _ _ (fun p j => hx (ix2 p j)) (fun u => hv (ix1 u)) (fun k => hb (ix1 k))) b) n).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
